-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v106)) (v1 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_v203) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000x16 : Shape := ⟨2, ![3200000, 16]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S16x64 : Shape := ⟨2, ![16, 64]⟩
abbrev S3x64x64 : Shape := ⟨3, ![3, 64, 64]⟩
abbrev S3x64 : Shape := ⟨2, ![3, 64]⟩
abbrev S_ : Shape := ⟨0, ![]⟩
abbrev S1x3200000 : Shape := ⟨2, ![1, 3200000]⟩
abbrev S3200000 : Shape := ⟨1, ![3200000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000x16 : S_.BroadcastsInDim S3200000x16 (![] : Fin 0 → Fin S3200000x16.rank)
  reducesTo_S3200000x16_S_d0_1 : S3200000x16.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part4 {F : FTy → Type} [FloatOps F] (main_v64 : IVec S_ 1) (main_v68 : IVec S3200000 1) : IVec S_ 1 :=
  let main_c_25 : IVec S_ 1 := constantI S_ 1 1#1
  let main_v69 : IVec S_ 1 := (fun x v => Host.reduce IntOp.andi x v reducesTo_S3200000_S_d0 h_S_) main_v68 main_c_25
  let main_v70 : IVec S_ 1 := andi main_v64 main_v69
  main_v70

def fn_part3 {F : FTy → Type} [FloatOps F] (main_arg2 : IVec S2x3200000 32) (main_arg13 : FVec F S3x64 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : IVec S1x3200000 32 := (extractStridedSlice S1x3200000 ![0, 0] · slices_S2x3200000_S1x3200000_0_0) main_arg2
  let main_v60 : IVec S3200000 32 := shapeCast S3200000 main_v59 shapeCasts_S1x3200000_S3200000
  let main_c_22 : IVec S_ 32 := constantI S_ 32 4294867296#32
  let main_v61 : IVec S3200000 32 := broadcastInDim S3200000 ![] bcast_S_S3200000 main_c_22
  let main_v62 : IVec S3200000 1 := cmpi .sge main_v60 main_v61
  let main_c_23 : IVec S_ 1 := constantI S_ 1 1#1
  let main_v63 : IVec S_ 1 := (fun x v => Host.reduce IntOp.andi x v reducesTo_S3200000_S_d0 h_S_) main_v62 main_c_23
  let main_v64 : IVec S_ 1 := andi main_v58 main_v63
  let main_v65 : IVec S1x3200000 32 := (extractStridedSlice S1x3200000 ![0, 0] · slices_S2x3200000_S1x3200000_0_0) main_arg2
  let main_v66 : IVec S3200000 32 := shapeCast S3200000 main_v65 shapeCasts_S1x3200000_S3200000
  let main_c_24 : IVec S_ 32 := constantI S_ 32 100000#32
  let main_v67 : IVec S3200000 32 := broadcastInDim S3200000 ![] bcast_S_S3200000 main_c_24
  let main_v68 : IVec S3200000 1 := cmpi .slt main_v66 main_v67
  fn_part4 (F := F) main_v64 main_v68

def fn_part2 {F : FTy → Type} [FloatOps F] (main_arg2 : IVec S2x3200000 32) (main_arg9 : FVec F S3x64 .f32) (main_arg10 : FVec F S3x64x64 .f32) (main_arg11 : FVec F S3x64 .f32) (main_arg12 : FVec F S3x64 .f32) (main_arg13 : FVec F S3x64 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64x64 .f32 := Host.absf main_arg10
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg2 main_arg13 main_v48 main_v49 main_v50

def fn_part1 {F : FTy → Type} [FloatOps F] (main_arg2 : IVec S2x3200000 32) (main_arg6 : FVec F S16x64 .f32) (main_arg7 : FVec F S64 .f32) (main_arg8 : FVec F S3x64x64 .f32) (main_arg9 : FVec F S3x64 .f32) (main_arg10 : FVec F S3x64x64 .f32) (main_arg11 : FVec F S3x64 .f32) (main_arg12 : FVec F S3x64 .f32) (main_arg13 : FVec F S3x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg6
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg8
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg2 main_arg9 main_arg10 main_arg11 main_arg12 main_arg13 main_v33

def fn {F : FTy → Type} [FloatOps F] (main_arg0 : FVec F S100000x128 .f32) (main_arg1 : FVec F S3200000x16 .f32) (main_arg2 : IVec S2x3200000 32) (main_arg3 : IVec S100000 32) (main_arg4 : FVec F S128x64 .f32) (main_arg5 : FVec F S64 .f32) (main_arg6 : FVec F S16x64 .f32) (main_arg7 : FVec F S64 .f32) (main_arg8 : FVec F S3x64x64 .f32) (main_arg9 : FVec F S3x64 .f32) (main_arg10 : FVec F S3x64x64 .f32) (main_arg11 : FVec F S3x64 .f32) (main_arg12 : FVec F S3x64 .f32) (main_arg13 : FVec F S3x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000x16 .f32 := Host.absf main_arg1
  let main_cst_0 : FVec F S_ .f32 := constant S_ .f32 0x7F800000#32
  let main_v5 : FVec F S3200000x16 .f32 := broadcastInDim S3200000x16 ![] bcast_S_S3200000x16 main_cst_0
  let main_v6 : IVec S3200000x16 1 := cmpf .olt main_v4 main_v5
  let main_c_1 : IVec S_ 1 := constantI S_ 1 1#1
  let main_v7 : IVec S_ 1 := (fun x v => Host.reduce IntOp.andi x v reducesTo_S3200000x16_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_arg8 main_arg9 main_arg10 main_arg11 main_arg12 main_arg13 main_v13 main_v16
-- ==== Kernel.lean ====
abbrev S100000x128 : Shape := ⟨2, ![100000, 128]⟩
abbrev S3200000x16 : Shape := ⟨2, ![3200000, 16]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S16x64 : Shape := ⟨2, ![16, 64]⟩
abbrev S3x64x64 : Shape := ⟨3, ![3, 64, 64]⟩
abbrev S3x64 : Shape := ⟨2, ![3, 64]⟩
abbrev S1x3200000 : Shape := ⟨2, ![1, 3200000]⟩
abbrev S3200000 : Shape := ⟨1, ![3200000]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S3200000x64 : Shape := ⟨2, ![3200000, 64]⟩
abbrev S8000x16 : Shape := ⟨2, ![8000, 16]⟩
abbrev S8000x64 : Shape := ⟨2, ![8000, 64]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S1x64x64 : Shape := ⟨3, ![1, 64, 64]⟩
abbrev S64x64 : Shape := ⟨2, ![64, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩

abbrev nBuf : Space → Nat
  | .hbm => 218
  | .vmem => 90
  | .smem => 0
  | _ => 0

abbrev hbmTy0_0 (i : Nat) : BufTy := match i % 128 with
  | 0 => ⟨S100000x128, .f32⟩
  | 1 => ⟨S3200000x16, .f32⟩
  | 2 => ⟨S2x3200000, .i32⟩
  | 3 => ⟨S100000, .i32⟩
  | 4 => ⟨S128x64, .f32⟩
  | 5 => ⟨S64, .f32⟩
  | 6 => ⟨S16x64, .f32⟩
  | 7 => ⟨S64, .f32⟩
  | 8 => ⟨S3x64x64, .f32⟩
  | 9 => ⟨S3x64, .f32⟩
  | 10 => ⟨S3x64x64, .f32⟩
  | 11 => ⟨S3x64, .f32⟩
  | 12 => ⟨S3x64, .f32⟩
  | 13 => ⟨S3x64, .f32⟩
  | 14 => ⟨S1x3200000, .i32⟩
  | 15 => ⟨S3200000, .i32⟩
  | 16 => ⟨S1x3200000, .i32⟩
  | 17 => ⟨S3200000, .i32⟩
  | 18 => ⟨S1x64, .f32⟩
  | 19 => ⟨S100000x64, .f32⟩
  | 20 => ⟨S1x64, .f32⟩
  | 21 => ⟨S3200000x64, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S1, .i32⟩
  | 31 => ⟨S_, .i32⟩
  | 32 => ⟨S3200000x1, .i32⟩
  | 33 => ⟨S3200000x1, .i1⟩
  | 34 => ⟨S1x1, .i32⟩
  | 35 => ⟨S3200000x1, .i32⟩
  | 36 => ⟨S3200000x1, .i1⟩
  | 37 => ⟨S3200000x1, .i1⟩
  | 38 => ⟨S_, .i1⟩
  | 39 => ⟨S3200000, .i1⟩
  | 40 => ⟨S3200000x64, .f32⟩
  | 41 => ⟨S3200000x64, .i1⟩
  | 42 => ⟨S_, .f32⟩
  | 43 => ⟨S3200000x64, .f32⟩
  | 44 => ⟨S3200000x64, .f32⟩
  | 45 => ⟨S3200000x64, .f32⟩
  | 46 => ⟨S_, .f32⟩
  | 47 => ⟨S100000x64, .f32⟩
  | 48 => ⟨S3200000x1, .i32⟩
  | 49 => ⟨S100000x64, .f32⟩
  | 50 => ⟨S1x64x64, .f32⟩
  | 51 => ⟨S64x64, .f32⟩
  | 52 => ⟨S1x64, .f32⟩
  | 53 => ⟨S64, .f32⟩
  | 54 => ⟨S1x64x64, .f32⟩
  | 55 => ⟨S64x64, .f32⟩
  | 56 => ⟨S1x64, .f32⟩
  | 57 => ⟨S64, .f32⟩
  | 58 => ⟨S1x64, .f32⟩
  | 59 => ⟨S1x64, .f32⟩
  | 60 => ⟨S100000x64, .f32⟩
  | 61 => ⟨S1x64, .f32⟩
  | 62 => ⟨S1x64, .f32⟩
  | 63 => ⟨S64, .f32⟩
  | 64 => ⟨S_, .f32⟩
  | 65 => ⟨S64, .f32⟩
  | 66 => ⟨S64, .f32⟩
  | 67 => ⟨S64, .f32⟩
  | 68 => ⟨S_, .f32⟩
  | 69 => ⟨S64, .f32⟩
  | 70 => ⟨S64, .f32⟩
  | 71 => ⟨S64, .f32⟩
  | 72 => ⟨S64, .f32⟩
  | 73 => ⟨S1x64, .f32⟩
  | 74 => ⟨S64, .f32⟩
  | 75 => ⟨S1x64, .f32⟩
  | 76 => ⟨S64, .f32⟩
  | 77 => ⟨S1x64, .f32⟩
  | 78 => ⟨S1x64, .f32⟩
  | 79 => ⟨S1x64, .f32⟩
  | 80 => ⟨S1x64, .f32⟩
  | 81 => ⟨S100000x64, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S1, .i32⟩
  | 91 => ⟨S_, .i32⟩
  | 92 => ⟨S3200000x1, .i32⟩
  | 93 => ⟨S3200000x1, .i1⟩
  | 94 => ⟨S1x1, .i32⟩
  | 95 => ⟨S3200000x1, .i32⟩
  | 96 => ⟨S3200000x1, .i1⟩
  | 97 => ⟨S3200000x1, .i1⟩
  | 98 => ⟨S_, .i1⟩
  | 99 => ⟨S3200000, .i1⟩
  | 100 => ⟨S3200000x64, .f32⟩
  | 101 => ⟨S3200000x64, .i1⟩
  | 102 => ⟨S_, .f32⟩
  | 103 => ⟨S3200000x64, .f32⟩
  | 104 => ⟨S3200000x64, .f32⟩
  | 105 => ⟨S3200000x64, .f32⟩
  | 106 => ⟨S_, .f32⟩
  | 107 => ⟨S100000x64, .f32⟩
  | 108 => ⟨S3200000x1, .i32⟩
  | 109 => ⟨S100000x64, .f32⟩
  | 110 => ⟨S1x64x64, .f32⟩
  | 111 => ⟨S64x64, .f32⟩
  | 112 => ⟨S1x64, .f32⟩
  | 113 => ⟨S64, .f32⟩
  | 114 => ⟨S1x64x64, .f32⟩
  | 115 => ⟨S64x64, .f32⟩
  | 116 => ⟨S1x64, .f32⟩
  | 117 => ⟨S64, .f32⟩
  | 118 => ⟨S1x64, .f32⟩
  | 119 => ⟨S1x64, .f32⟩
  | 120 => ⟨S100000x64, .f32⟩
  | 121 => ⟨S1x64, .f32⟩
  | 122 => ⟨S1x64, .f32⟩
  | 123 => ⟨S64, .f32⟩
  | 124 => ⟨S_, .f32⟩
  | 125 => ⟨S64, .f32⟩
  | 126 => ⟨S64, .f32⟩
  | 127 => ⟨S64, .f32⟩
  | _ => ⟨S100000x128, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S64, .f32⟩
  | 5 => ⟨S1x64, .f32⟩
  | 6 => ⟨S64, .f32⟩
  | 7 => ⟨S1x64, .f32⟩
  | 8 => ⟨S64, .f32⟩
  | 9 => ⟨S1x64, .f32⟩
  | 10 => ⟨S1x64, .f32⟩
  | 11 => ⟨S1x64, .f32⟩
  | 12 => ⟨S1x64, .f32⟩
  | 13 => ⟨S100000x64, .f32⟩
  | 14 => ⟨S_, .i32⟩
  | 15 => ⟨S3200000, .i32⟩
  | 16 => ⟨S3200000, .i1⟩
  | 17 => ⟨S_, .i32⟩
  | 18 => ⟨S3200000, .i32⟩
  | 19 => ⟨S3200000, .i32⟩
  | 20 => ⟨S3200000, .i32⟩
  | 21 => ⟨S3200000x1, .i32⟩
  | 22 => ⟨S1, .i32⟩
  | 23 => ⟨S_, .i32⟩
  | 24 => ⟨S3200000x1, .i32⟩
  | 25 => ⟨S3200000x1, .i1⟩
  | 26 => ⟨S1x1, .i32⟩
  | 27 => ⟨S3200000x1, .i32⟩
  | 28 => ⟨S3200000x1, .i1⟩
  | 29 => ⟨S3200000x1, .i1⟩
  | 30 => ⟨S_, .i1⟩
  | 31 => ⟨S3200000, .i1⟩
  | 32 => ⟨S3200000x64, .f32⟩
  | 33 => ⟨S3200000x64, .i1⟩
  | 34 => ⟨S_, .f32⟩
  | 35 => ⟨S3200000x64, .f32⟩
  | 36 => ⟨S3200000x64, .f32⟩
  | 37 => ⟨S3200000x64, .f32⟩
  | 38 => ⟨S_, .f32⟩
  | 39 => ⟨S100000x64, .f32⟩
  | 40 => ⟨S3200000x1, .i32⟩
  | 41 => ⟨S100000x64, .f32⟩
  | 42 => ⟨S1x64x64, .f32⟩
  | 43 => ⟨S64x64, .f32⟩
  | 44 => ⟨S1x64, .f32⟩
  | 45 => ⟨S64, .f32⟩
  | 46 => ⟨S1x64x64, .f32⟩
  | 47 => ⟨S64x64, .f32⟩
  | 48 => ⟨S1x64, .f32⟩
  | 49 => ⟨S64, .f32⟩
  | 50 => ⟨S1x64, .f32⟩
  | 51 => ⟨S1x64, .f32⟩
  | 52 => ⟨S100000x64, .f32⟩
  | 53 => ⟨S1x64, .f32⟩
  | 54 => ⟨S1x64, .f32⟩
  | 55 => ⟨S64, .f32⟩
  | 56 => ⟨S_, .f32⟩
  | 57 => ⟨S64, .f32⟩
  | 58 => ⟨S64, .f32⟩
  | 59 => ⟨S64, .f32⟩
  | 60 => ⟨S_, .f32⟩
  | 61 => ⟨S64, .f32⟩
  | 62 => ⟨S64, .f32⟩
  | 63 => ⟨S64, .f32⟩
  | 64 => ⟨S64, .f32⟩
  | 65 => ⟨S1x64, .f32⟩
  | 66 => ⟨S64, .f32⟩
  | 67 => ⟨S1x64, .f32⟩
  | 68 => ⟨S64, .f32⟩
  | 69 => ⟨S1x64, .f32⟩
  | 70 => ⟨S1x64, .f32⟩
  | 71 => ⟨S1x64, .f32⟩
  | 72 => ⟨S1x64, .f32⟩
  | 73 => ⟨S100000x64, .f32⟩
  | 74 => ⟨S_, .f32⟩
  | 75 => ⟨S256x64, .f32⟩
  | 76 => ⟨S100000x1, .i32⟩
  | 77 => ⟨S256x64, .f32⟩
  | 78 => ⟨S_, .f32⟩
  | 79 => ⟨S100000, .f32⟩
  | 80 => ⟨S_, .f32⟩
  | 81 => ⟨S256, .f32⟩
  | 82 => ⟨S100000x1, .i32⟩
  | 83 => ⟨S256, .f32⟩
  | 84 => ⟨S_, .f32⟩
  | 85 => ⟨S256, .f32⟩
  | 86 => ⟨S256, .f32⟩
  | 87 => ⟨S256x1, .f32⟩
  | 88 => ⟨S256x64, .f32⟩
  | 89 => ⟨S256x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S8000x16, .f32⟩
  | .local _ .vmem, ⟨7, _⟩ => ⟨S8000x16, .f32⟩
  | .local _ .vmem, ⟨8, _⟩ => ⟨S16x64, .f32⟩
  | .local _ .vmem, ⟨9, _⟩ => ⟨S1x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S8000x64, .f32⟩
  | .local _ .vmem, ⟨39, _⟩ => ⟨S8000x64, .f32⟩
  | .local _ .vmem, ⟨40, _⟩ => ⟨S8000x64, .f32⟩
  | .local _ .vmem, ⟨41, _⟩ => ⟨S8000x64, .f32⟩
  | .local _ .vmem, ⟨42, _⟩ => ⟨S8000x64, .f32⟩
  | .local _ .vmem, ⟨43, _⟩ => ⟨S8000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S5000x64, .f32⟩
  | .local _ .vmem, ⟨57, _⟩ => ⟨S5000x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | .local _ .vmem, ⟨64, _⟩ => ⟨S8000x64, .f32⟩
  | .local _ .vmem, ⟨65, _⟩ => ⟨S8000x64, .f32⟩
  | .local _ .vmem, ⟨66, _⟩ => ⟨S8000x64, .f32⟩
  | .local _ .vmem, ⟨67, _⟩ => ⟨S8000x64, .f32⟩
  | .local _ .vmem, ⟨68, _⟩ => ⟨S8000x64, .f32⟩
  | .local _ .vmem, ⟨69, _⟩ => ⟨S8000x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S64x64, .f32⟩
  | .local _ .vmem, ⟨75, _⟩ => ⟨S1x64, .f32⟩
  | .local _ .vmem, ⟨76, _⟩ => ⟨S64x64, .f32⟩
  | .local _ .vmem, ⟨77, _⟩ => ⟨S1x64, .f32⟩
  | .local _ .vmem, ⟨78, _⟩ => ⟨S5000x64, .f32⟩
  | .local _ .vmem, ⟨79, _⟩ => ⟨S5000x64, .f32⟩
  | .local _ .vmem, ⟨80, _⟩ => ⟨S1x64, .f32⟩
  | .local _ .vmem, ⟨81, _⟩ => ⟨S1x64, .f32⟩
  | .local _ .vmem, ⟨82, _⟩ => ⟨S5000x64, .f32⟩
  | .local _ .vmem, ⟨83, _⟩ => ⟨S5000x64, .f32⟩
  | .local _ .vmem, ⟨84, _⟩ => ⟨S1x64, .f32⟩
  | .local _ .vmem, ⟨85, _⟩ => ⟨S1x64, .f32⟩
  | .local _ .vmem, ⟨86, _⟩ => ⟨S1x64, .f32⟩
  | .local _ .vmem, ⟨87, _⟩ => ⟨S1x64, .f32⟩
  | .local _ .vmem, ⟨88, _⟩ => ⟨S5000x64, .f32⟩
  | .local _ .vmem, ⟨89, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v8 : Ref sig .tc := ⟨.hbm, 44, rfl⟩
abbrev main_v9 : Ref sig .tc := ⟨.hbm, 45, rfl⟩
abbrev main_cst : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23_0 : Ref sig .tc := ⟨.hbm, 60, rfl⟩
abbrev main_v23_1 : Ref sig .tc := ⟨.hbm, 61, rfl⟩
abbrev main_v23_2 : Ref sig .tc := ⟨.hbm, 62, rfl⟩
abbrev main_v24 : Ref sig .tc := ⟨.hbm, 63, rfl⟩
abbrev main_cst_0 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_1 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v41 : Ref sig .tc := ⟨.hbm, 104, rfl⟩
abbrev main_v42 : Ref sig .tc := ⟨.hbm, 105, rfl⟩
abbrev main_cst_2 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56_0 : Ref sig .tc := ⟨.hbm, 120, rfl⟩
abbrev main_v56_1 : Ref sig .tc := ⟨.hbm, 121, rfl⟩
abbrev main_v56_2 : Ref sig .tc := ⟨.hbm, 122, rfl⟩
abbrev main_v57 : Ref sig .tc := ⟨.hbm, 123, rfl⟩
abbrev main_cst_3 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_cst_4 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_call2_c : Ref sig .tc := ⟨.hbm, 142, rfl⟩
abbrev main_call2_v0 : Ref sig .tc := ⟨.hbm, 143, rfl⟩
abbrev main_call2_v1 : Ref sig .tc := ⟨.hbm, 144, rfl⟩
abbrev main_call2_c_0 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_c_1 : Ref sig .tc := ⟨.hbm, 150, rfl⟩
abbrev main_call2_c_2 : Ref sig .tc := ⟨.hbm, 151, rfl⟩
abbrev main_call2_v6 : Ref sig .tc := ⟨.hbm, 152, rfl⟩
abbrev main_call2_v7 : Ref sig .tc := ⟨.hbm, 153, rfl⟩
abbrev main_call2_v8 : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_c_3 : Ref sig .tc := ⟨.hbm, 158, rfl⟩
abbrev main_call2_v12 : Ref sig .tc := ⟨.hbm, 159, rfl⟩
abbrev main_call2_v13 : Ref sig .tc := ⟨.hbm, 160, rfl⟩
abbrev main_call2_v14 : Ref sig .tc := ⟨.hbm, 161, rfl⟩
abbrev main_call2_cst : Ref sig .tc := ⟨.hbm, 162, rfl⟩
abbrev main_call2_v15 : Ref sig .tc := ⟨.hbm, 163, rfl⟩
abbrev main_v74 : Ref sig .tc := ⟨.hbm, 164, rfl⟩
abbrev main_v75 : Ref sig .tc := ⟨.hbm, 165, rfl⟩
abbrev main_cst_5 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89_0 : Ref sig .tc := ⟨.hbm, 180, rfl⟩
abbrev main_v89_1 : Ref sig .tc := ⟨.hbm, 181, rfl⟩
abbrev main_v89_2 : Ref sig .tc := ⟨.hbm, 182, rfl⟩
abbrev main_v90 : Ref sig .tc := ⟨.hbm, 183, rfl⟩
abbrev main_cst_6 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_cst_7 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_cst_8 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_cst_9 : Ref sig .tc := ⟨.hbm, 206, rfl⟩
abbrev main_v110 : Ref sig .tc := ⟨.hbm, 207, rfl⟩
abbrev main_cst_10 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_cst_11 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc3_stg7_0 : Ref sig .tc := ⟨.vmem, 28, rfl⟩
abbrev cc3_stg8_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg6_1 : Ref sig .tc := ⟨.vmem, 53, rfl⟩
abbrev cc6_stg7_0 : Ref sig .tc := ⟨.vmem, 54, rfl⟩
abbrev cc6_stg8_0 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg5_0 : Ref sig .tc := ⟨.vmem, 77, rfl⟩
abbrev cc9_stg6_0 : Ref sig .tc := ⟨.vmem, 78, rfl⟩
abbrev cc9_stg6_1 : Ref sig .tc := ⟨.vmem, 79, rfl⟩
abbrev cc9_stg7_0 : Ref sig .tc := ⟨.vmem, 80, rfl⟩
abbrev cc9_stg8_0 : Ref sig .tc := ⟨.vmem, 81, rfl⟩
abbrev cc10_stg0_0 : Ref sig .tc := ⟨.vmem, 82, rfl⟩
abbrev cc10_stg0_1 : Ref sig .tc := ⟨.vmem, 83, rfl⟩
abbrev cc10_stg1_0 : Ref sig .tc := ⟨.vmem, 84, rfl⟩
abbrev cc10_stg2_0 : Ref sig .tc := ⟨.vmem, 85, rfl⟩
abbrev cc10_stg3_0 : Ref sig .tc := ⟨.vmem, 86, rfl⟩
abbrev cc10_stg4_0 : Ref sig .tc := ⟨.vmem, 87, rfl⟩
abbrev cc10_stg5_0 : Ref sig .tc := ⟨.vmem, 88, rfl⟩
abbrev cc10_stg5_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc3_sem7_0 : DmaSem sig := 28
abbrev cc3_sem8_0 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem6_1 : DmaSem sig := 53
abbrev cc6_sem7_0 : DmaSem sig := 54
abbrev cc6_sem8_0 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem3_0 : DmaSem sig := 75
abbrev cc9_sem4_0 : DmaSem sig := 76
abbrev cc9_sem5_0 : DmaSem sig := 77
abbrev cc9_sem6_0 : DmaSem sig := 78
abbrev cc9_sem6_1 : DmaSem sig := 79
abbrev cc9_sem7_0 : DmaSem sig := 80
abbrev cc9_sem8_0 : DmaSem sig := 81
abbrev cc10_sem0_0 : DmaSem sig := 82
abbrev cc10_sem0_1 : DmaSem sig := 83
abbrev cc10_sem1_0 : DmaSem sig := 84
abbrev cc10_sem2_0 : DmaSem sig := 85
abbrev cc10_sem3_0 : DmaSem sig := 86
abbrev cc10_sem4_0 : DmaSem sig := 87
abbrev cc10_sem5_0 : DmaSem sig := 88
abbrev cc10_sem5_1 : DmaSem sig := 89

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![400], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![400], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S8000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 1 → Memref sig .tc .vmem S1x64 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x64 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S8000x16_S8000x16_0_0 : ∀ a, (![0, 0] : Fin 2 → Nat) a + S8000x16.size a ≤ S8000x16.size a
  h_S8000x16 : 0 < S8000x16.numel
  inb_S16x64_S16x64_0_0 : ∀ a, (![0, 0] : Fin 2 → Nat) a + S16x64.size a ≤ S16x64.size a
  h_S16x64 : 0 < S16x64.numel
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x64_0 : S3200000.BroadcastsInDim S3200000x64 (![0] : Fin 1 → Fin S3200000x64.rank)
  bcast_S_S3200000x64 : S_.BroadcastsInDim S3200000x64 (![] : Fin 0 → Fin S3200000x64.rank)
  shapeCasts_S8000x64_S8000x64 : S8000x64.ShapeCasts S8000x64
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S5000x64_S64 : S5000x64.Reduces [0] S64
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  dot_S5000x128_S128x64_S5000x64_1_0_0_1_n_n_wf : DotDims.WF S5000x128 S128x64 S5000x64 [1] [0] [0] [1] [] []
  dot_S8000x16_S16x64_S8000x64_1_0_0_1_n_n_wf : DotDims.WF S8000x16 S16x64 S8000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S3200000x16.size a
  hwx1_0 : ∀ i : grid1.Coords, EltTy.bits .f32 = 32 ∨ (Rect.block (s := S3200000x16) S8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S3200000x64.size a
  hwx1_3 : ∀ i : grid1.Coords, EltTy.bits .f32 = 32 ∨ (Rect.block (s := S3200000x64) S8000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S3200000x64.size a
  hwx2_0 : ∀ i : grid2.Coords, EltTy.bits .f32 = 32 ∨ (Rect.block (s := S3200000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S3200000x64.size a
  hwx2_1 : ∀ i : grid2.Coords, EltTy.bits .f32 = 32 ∨ (Rect.block (s := S3200000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S3200000x64.size a
  hwx2_2 : ∀ i : grid2.Coords, EltTy.bits .f32 = 32 ∨ (Rect.block (s := S3200000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S3200000x64.size a
  hwx5_0 : ∀ i : grid5.Coords, EltTy.bits .f32 = 32 ∨ (Rect.block (s := S3200000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x64.size a ≤ S3200000x64.size a
  hwx5_1 : ∀ i : grid5.Coords, EltTy.bits .f32 = 32 ∨ (Rect.block (s := S3200000x64) S8000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x64.size a ≤ S3200000x64.size a
  hwx5_2 : ∀ i : grid5.Coords, EltTy.bits .f32 = 32 ∨ (Rect.block (s := S3200000x64) S8000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S100000x64.size a
  hwx6_6 : ∀ i : grid6.Coords, EltTy.bits .f32 = 32 ∨ (Rect.block (s := S100000x64) S5000x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x64.size a ≤ S1x64.size a
  hwx6_8 : ∀ i : grid6.Coords, EltTy.bits .f32 = 32 ∨ (Rect.block (s := S1x64) S1x64.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S100000x64.size a
  hwx7_5 : ∀ i : grid7.Coords, EltTy.bits .f32 = 32 ∨ (Rect.block (s := S100000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x64.size a ≤ S3200000x64.size a
  hwx8_0 : ∀ i : grid8.Coords, EltTy.bits .f32 = 32 ∨ (Rect.block (s := S3200000x64) S8000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8000x64.size a ≤ S3200000x64.size a
  hwx8_1 : ∀ i : grid8.Coords, EltTy.bits .f32 = 32 ∨ (Rect.block (s := S3200000x64) S8000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8000x64.size a ≤ S3200000x64.size a
  hwx8_2 : ∀ i : grid8.Coords, EltTy.bits .f32 = 32 ∨ (Rect.block (s := S3200000x64) S8000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x64.size a ≤ S64x64.size a
  hwx9_4 : ∀ i : grid9.Coords, EltTy.bits .f32 = 32 ∨ (Rect.block (s := S64x64) S64x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x64.size a ≤ S1x64.size a
  hwx9_5 : ∀ i : grid9.Coords, EltTy.bits .f32 = 32 ∨ (Rect.block (s := S1x64) S1x64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x64.size a ≤ S100000x64.size a
  hwx9_6 : ∀ i : grid9.Coords, EltTy.bits .f32 = 32 ∨ (Rect.block (s := S100000x64) S5000x64.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x64.size a ≤ S1x64.size a
  hwx9_7 : ∀ i : grid9.Coords, EltTy.bits .f32 = 32 ∨ (Rect.block (s := S1x64) S1x64.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x64.size a ≤ S1x64.size a
  hwx9_8 : ∀ i : grid9.Coords, EltTy.bits .f32 = 32 ∨ (Rect.block (s := S1x64) S1x64.size (cc9_transform_8 i) (hinb9_8 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x64.size a ≤ S100000x64.size a
  hwx10_5 : ∀ i : grid10.Coords, EltTy.bits .f32 = 32 ∨ (Rect.block (s := S100000x64) S5000x64.size (cc10_transform_5 i) (hinb10_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v5) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v22) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v23_0) S5000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v23_1) S1x64.size cc3_transform_7 reads3_7 true true 1 stage3_7 sem3_7
    hrank3 hreads3_7 hinb3_7 nbuf3_7 (Memref.isWhole_whole _) hwx3_7 hstage3_7

abbrev win3_8 : Pipeline.Window sig grid3 :=
  Pipeline.Window.ofSpec (Memref.whole main_v23_2) S1x64.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v23_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v37) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v38) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v39) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v40) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v41) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S8000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v42) S8000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v40) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v45) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v47) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v54) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v51) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v55) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v56_0) S5000x64.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v56_1) S1x64.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v56_2) S1x64.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v56_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v69) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v70) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v71) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v72) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v73) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v74) S8000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v7) S8000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v75) S8000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v73) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v78) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v80) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v87) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v84) S64x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v88) S1x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v89_0) S5000x64.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_v89_1) S1x64.size cc9_transform_7 reads9_7 true true 1 stage9_7 sem9_7
    hrank9 hreads9_7 hinb9_7 nbuf9_7 (Memref.isWhole_whole _) hwx9_7 hstage9_7

abbrev win9_8 : Pipeline.Window sig grid9 :=
  Pipeline.Window.ofSpec (Memref.whole main_v89_2) S1x64.size cc9_transform_8 reads9_8 true true 1 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

abbrev win10_0 : Pipeline.Window sig grid10 :=
  Pipeline.Window.ofSpec (Memref.whole main_v89_0) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v102) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v103) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v104) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v105) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v106) S5000x64.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S100000x128 : Shape := ⟨2, ![100000, 128]⟩
abbrev S3200000x16 : Shape := ⟨2, ![3200000, 16]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S16x64 : Shape := ⟨2, ![16, 64]⟩
abbrev S3x64x64 : Shape := ⟨3, ![3, 64, 64]⟩
abbrev S3x64 : Shape := ⟨2, ![3, 64]⟩
abbrev S100000x64 : Shape := ⟨2, ![100000, 64]⟩
abbrev S1x64 : Shape := ⟨2, ![1, 64]⟩
abbrev S3200000x64 : Shape := ⟨2, ![3200000, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1x64x64 : Shape := ⟨3, ![1, 64, 64]⟩
abbrev S64x64 : Shape := ⟨2, ![64, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩

abbrev nBuf : Space → Nat
  | .hbm => 264
  | .vmem => 0
  | .smem => 0
  | _ => 0

abbrev hbmTy0_0 (i : Nat) : BufTy := match i % 128 with
  | 0 => ⟨S100000x128, .f32⟩
  | 1 => ⟨S3200000x16, .f32⟩
  | 2 => ⟨S2x3200000, .i32⟩
  | 3 => ⟨S100000, .i32⟩
  | 4 => ⟨S128x64, .f32⟩
  | 5 => ⟨S64, .f32⟩
  | 6 => ⟨S16x64, .f32⟩
  | 7 => ⟨S64, .f32⟩
  | 8 => ⟨S3x64x64, .f32⟩
  | 9 => ⟨S3x64, .f32⟩
  | 10 => ⟨S3x64x64, .f32⟩
  | 11 => ⟨S3x64, .f32⟩
  | 12 => ⟨S3x64, .f32⟩
  | 13 => ⟨S3x64, .f32⟩
  | 14 => ⟨S100000x64, .f32⟩
  | 15 => ⟨S1x64, .f32⟩
  | 16 => ⟨S100000x64, .f32⟩
  | 17 => ⟨S100000x64, .f32⟩
  | 18 => ⟨S3200000x64, .f32⟩
  | 19 => ⟨S1x64, .f32⟩
  | 20 => ⟨S3200000x64, .f32⟩
  | 21 => ⟨S3200000x64, .f32⟩
  | 22 => ⟨S1x3200000, .i32⟩
  | 23 => ⟨S3200000, .i32⟩
  | 24 => ⟨S1x3200000, .i32⟩
  | 25 => ⟨S3200000, .i32⟩
  | 26 => ⟨S_, .i32⟩
  | 27 => ⟨S3200000, .i32⟩
  | 28 => ⟨S3200000, .i1⟩
  | 29 => ⟨S_, .i32⟩
  | 30 => ⟨S3200000, .i32⟩
  | 31 => ⟨S3200000, .i32⟩
  | 32 => ⟨S3200000, .i32⟩
  | 33 => ⟨S3200000x1, .i32⟩
  | 34 => ⟨S3200000x64, .f32⟩
  | 35 => ⟨S3200000x64, .f32⟩
  | 36 => ⟨S_, .f32⟩
  | 37 => ⟨S3200000x64, .f32⟩
  | 38 => ⟨S3200000x64, .f32⟩
  | 39 => ⟨S_, .f32⟩
  | 40 => ⟨S100000x64, .f32⟩
  | 41 => ⟨S3200000x1, .i32⟩
  | 42 => ⟨S100000x64, .f32⟩
  | 43 => ⟨S100000x64, .f32⟩
  | 44 => ⟨S1x64x64, .f32⟩
  | 45 => ⟨S64x64, .f32⟩
  | 46 => ⟨S100000x64, .f32⟩
  | 47 => ⟨S1x64, .f32⟩
  | 48 => ⟨S64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S1x64x64, .f32⟩
  | 56 => ⟨S64x64, .f32⟩
  | 57 => ⟨S100000x64, .f32⟩
  | 58 => ⟨S1x64, .f32⟩
  | 59 => ⟨S64, .f32⟩
  | 60 => ⟨S1x64, .f32⟩
  | 61 => ⟨S100000x64, .f32⟩
  | 62 => ⟨S100000x64, .f32⟩
  | 63 => ⟨S_, .f32⟩
  | 64 => ⟨S64, .f32⟩
  | 65 => ⟨S_, .f32⟩
  | 66 => ⟨S64, .f32⟩
  | 67 => ⟨S64, .f32⟩
  | 68 => ⟨S1x64, .f32⟩
  | 69 => ⟨S100000x64, .f32⟩
  | 70 => ⟨S100000x64, .f32⟩
  | 71 => ⟨S100000x64, .f32⟩
  | 72 => ⟨S_, .f32⟩
  | 73 => ⟨S64, .f32⟩
  | 74 => ⟨S_, .f32⟩
  | 75 => ⟨S64, .f32⟩
  | 76 => ⟨S64, .f32⟩
  | 77 => ⟨S1x64, .f32⟩
  | 78 => ⟨S100000x64, .f32⟩
  | 79 => ⟨S100000x64, .f32⟩
  | 80 => ⟨S_, .f32⟩
  | 81 => ⟨S64, .f32⟩
  | 82 => ⟨S64, .f32⟩
  | 83 => ⟨S64, .f32⟩
  | 84 => ⟨S1x64, .f32⟩
  | 85 => ⟨S100000x64, .f32⟩
  | 86 => ⟨S100000x64, .f32⟩
  | 87 => ⟨S1x64, .f32⟩
  | 88 => ⟨S64, .f32⟩
  | 89 => ⟨S1x64, .f32⟩
  | 90 => ⟨S100000x64, .f32⟩
  | 91 => ⟨S100000x64, .f32⟩
  | 92 => ⟨S1x64, .f32⟩
  | 93 => ⟨S64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000x64, .f32⟩
  | 109 => ⟨S3200000x64, .f32⟩
  | 110 => ⟨S_, .f32⟩
  | 111 => ⟨S3200000x64, .f32⟩
  | 112 => ⟨S3200000x64, .f32⟩
  | 113 => ⟨S_, .f32⟩
  | 114 => ⟨S100000x64, .f32⟩
  | 115 => ⟨S3200000x1, .i32⟩
  | 116 => ⟨S100000x64, .f32⟩
  | 117 => ⟨S100000x64, .f32⟩
  | 118 => ⟨S1x64x64, .f32⟩
  | 119 => ⟨S64x64, .f32⟩
  | 120 => ⟨S100000x64, .f32⟩
  | 121 => ⟨S1x64, .f32⟩
  | 122 => ⟨S64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x128, .f32⟩

abbrev hbmTy0_1 (i : Nat) : BufTy := match i % 128 with
  | 0 => ⟨S100000x64, .f32⟩
  | 1 => ⟨S1x64x64, .f32⟩
  | 2 => ⟨S64x64, .f32⟩
  | 3 => ⟨S100000x64, .f32⟩
  | 4 => ⟨S1x64, .f32⟩
  | 5 => ⟨S64, .f32⟩
  | 6 => ⟨S1x64, .f32⟩
  | 7 => ⟨S100000x64, .f32⟩
  | 8 => ⟨S100000x64, .f32⟩
  | 9 => ⟨S_, .f32⟩
  | 10 => ⟨S64, .f32⟩
  | 11 => ⟨S_, .f32⟩
  | 12 => ⟨S64, .f32⟩
  | 13 => ⟨S64, .f32⟩
  | 14 => ⟨S1x64, .f32⟩
  | 15 => ⟨S100000x64, .f32⟩
  | 16 => ⟨S100000x64, .f32⟩
  | 17 => ⟨S100000x64, .f32⟩
  | 18 => ⟨S_, .f32⟩
  | 19 => ⟨S64, .f32⟩
  | 20 => ⟨S_, .f32⟩
  | 21 => ⟨S64, .f32⟩
  | 22 => ⟨S64, .f32⟩
  | 23 => ⟨S1x64, .f32⟩
  | 24 => ⟨S100000x64, .f32⟩
  | 25 => ⟨S100000x64, .f32⟩
  | 26 => ⟨S_, .f32⟩
  | 27 => ⟨S64, .f32⟩
  | 28 => ⟨S64, .f32⟩
  | 29 => ⟨S64, .f32⟩
  | 30 => ⟨S1x64, .f32⟩
  | 31 => ⟨S100000x64, .f32⟩
  | 32 => ⟨S100000x64, .f32⟩
  | 33 => ⟨S1x64, .f32⟩
  | 34 => ⟨S64, .f32⟩
  | 35 => ⟨S1x64, .f32⟩
  | 36 => ⟨S100000x64, .f32⟩
  | 37 => ⟨S100000x64, .f32⟩
  | 38 => ⟨S1x64, .f32⟩
  | 39 => ⟨S64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S_, .i32⟩
  | 47 => ⟨S3200000, .i32⟩
  | 48 => ⟨S3200000, .i1⟩
  | 49 => ⟨S_, .i32⟩
  | 50 => ⟨S3200000, .i32⟩
  | 51 => ⟨S3200000, .i32⟩
  | 52 => ⟨S3200000, .i32⟩
  | 53 => ⟨S3200000x1, .i32⟩
  | 54 => ⟨S3200000x64, .f32⟩
  | 55 => ⟨S3200000x64, .f32⟩
  | 56 => ⟨S_, .f32⟩
  | 57 => ⟨S3200000x64, .f32⟩
  | 58 => ⟨S3200000x64, .f32⟩
  | 59 => ⟨S_, .f32⟩
  | 60 => ⟨S100000x64, .f32⟩
  | 61 => ⟨S3200000x1, .i32⟩
  | 62 => ⟨S100000x64, .f32⟩
  | 63 => ⟨S100000x64, .f32⟩
  | 64 => ⟨S1x64x64, .f32⟩
  | 65 => ⟨S64x64, .f32⟩
  | 66 => ⟨S100000x64, .f32⟩
  | 67 => ⟨S1x64, .f32⟩
  | 68 => ⟨S64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S1x64x64, .f32⟩
  | 76 => ⟨S64x64, .f32⟩
  | 77 => ⟨S100000x64, .f32⟩
  | 78 => ⟨S1x64, .f32⟩
  | 79 => ⟨S64, .f32⟩
  | 80 => ⟨S1x64, .f32⟩
  | 81 => ⟨S100000x64, .f32⟩
  | 82 => ⟨S100000x64, .f32⟩
  | 83 => ⟨S_, .f32⟩
  | 84 => ⟨S64, .f32⟩
  | 85 => ⟨S_, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S100000x64, .f32⟩
  | 92 => ⟨S_, .f32⟩
  | 93 => ⟨S64, .f32⟩
  | 94 => ⟨S_, .f32⟩
  | 95 => ⟨S64, .f32⟩
  | 96 => ⟨S64, .f32⟩
  | 97 => ⟨S1x64, .f32⟩
  | 98 => ⟨S100000x64, .f32⟩
  | 99 => ⟨S100000x64, .f32⟩
  | 100 => ⟨S_, .f32⟩
  | 101 => ⟨S64, .f32⟩
  | 102 => ⟨S64, .f32⟩
  | 103 => ⟨S64, .f32⟩
  | 104 => ⟨S1x64, .f32⟩
  | 105 => ⟨S100000x64, .f32⟩
  | 106 => ⟨S100000x64, .f32⟩
  | 107 => ⟨S1x64, .f32⟩
  | 108 => ⟨S64, .f32⟩
  | 109 => ⟨S1x64, .f32⟩
  | 110 => ⟨S100000x64, .f32⟩
  | 111 => ⟨S100000x64, .f32⟩
  | 112 => ⟨S1x64, .f32⟩
  | 113 => ⟨S64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S256x64, .f32⟩
  | 122 => ⟨S100000x1, .i32⟩
  | 123 => ⟨S256x64, .f32⟩
  | 124 => ⟨S_, .f32⟩
  | 125 => ⟨S100000, .f32⟩
  | 126 => ⟨S_, .f32⟩
  | 127 => ⟨S256, .f32⟩
  | _ => ⟨S100000x128, .f32⟩

abbrev hbmTy0_2 (i : Nat) : BufTy := match i % 128 with
  | 0 => ⟨S100000x1, .i32⟩
  | 1 => ⟨S256, .f32⟩
  | 2 => ⟨S_, .f32⟩
  | 3 => ⟨S256, .f32⟩
  | 4 => ⟨S256, .f32⟩
  | 5 => ⟨S256x1, .f32⟩
  | 6 => ⟨S256x64, .f32⟩
  | 7 => ⟨S256x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_cst : Ref sig .tc := ⟨.hbm, 52, rfl⟩
abbrev main_call1_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_1 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_cst_4 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call2_cst : Ref sig .tc := ⟨.hbm, 97, rfl⟩
abbrev main_call2_v0 : Ref sig .tc := ⟨.hbm, 98, rfl⟩
abbrev main_v71 : Ref sig .tc := ⟨.hbm, 99, rfl⟩
abbrev main_c_6 : Ref sig .tc := ⟨.hbm, 100, rfl⟩
abbrev main_v72 : Ref sig .tc := ⟨.hbm, 101, rfl⟩
abbrev main_v73 : Ref sig .tc := ⟨.hbm, 102, rfl⟩
abbrev main_c_7 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call3_cst : Ref sig .tc := ⟨.hbm, 110, rfl⟩
abbrev main_call3_v0 : Ref sig .tc := ⟨.hbm, 111, rfl⟩
abbrev main_v80 : Ref sig .tc := ⟨.hbm, 112, rfl⟩
abbrev main_cst_8 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call4_cst : Ref sig .tc := ⟨.hbm, 126, rfl⟩
abbrev main_call4_v0 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_9 : Ref sig .tc := ⟨.hbm, 137, rfl⟩
abbrev main_v102 : Ref sig .tc := ⟨.hbm, 138, rfl⟩
abbrev main_cst_10 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_11 : Ref sig .tc := ⟨.hbm, 146, rfl⟩
abbrev main_v109 : Ref sig .tc := ⟨.hbm, 147, rfl⟩
abbrev main_cst_12 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_13 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_call5_cst : Ref sig .tc := ⟨.hbm, 171, rfl⟩
abbrev main_call5_v0 : Ref sig .tc := ⟨.hbm, 172, rfl⟩
abbrev main_v131 : Ref sig .tc := ⟨.hbm, 173, rfl⟩
abbrev main_c_14 : Ref sig .tc := ⟨.hbm, 174, rfl⟩
abbrev main_v132 : Ref sig .tc := ⟨.hbm, 175, rfl⟩
abbrev main_v133 : Ref sig .tc := ⟨.hbm, 176, rfl⟩
abbrev main_c_15 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_call6_cst : Ref sig .tc := ⟨.hbm, 184, rfl⟩
abbrev main_call6_v0 : Ref sig .tc := ⟨.hbm, 185, rfl⟩
abbrev main_v140 : Ref sig .tc := ⟨.hbm, 186, rfl⟩
abbrev main_cst_16 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_call7_cst : Ref sig .tc := ⟨.hbm, 200, rfl⟩
abbrev main_call7_v0 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_cst_17 : Ref sig .tc := ⟨.hbm, 211, rfl⟩
abbrev main_v162 : Ref sig .tc := ⟨.hbm, 212, rfl⟩
abbrev main_cst_18 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_19 : Ref sig .tc := ⟨.hbm, 220, rfl⟩
abbrev main_v169 : Ref sig .tc := ⟨.hbm, 221, rfl⟩
abbrev main_cst_20 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_cst_21 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_call8_cst : Ref sig .tc := ⟨.hbm, 245, rfl⟩
abbrev main_call8_v0 : Ref sig .tc := ⟨.hbm, 246, rfl⟩
abbrev main_v191 : Ref sig .tc := ⟨.hbm, 247, rfl⟩
abbrev main_cst_22 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_cst_23 : Ref sig .tc := ⟨.hbm, 252, rfl⟩
abbrev main_v195 : Ref sig .tc := ⟨.hbm, 253, rfl⟩
abbrev main_cst_24 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_cst_25 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S3200000x64_0_1 : S1x64.BroadcastsInDim S3200000x64 (![0, 1] : Fin 2 → Fin S3200000x64.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x64 : S_.BroadcastsInDim S3200000x64 (![] : Fin 0 → Fin S3200000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  reducesTo_S100000x64_S64_d0 : S100000x64.ReducesTo [0] S64
  h_S_ : 0 < S_.numel
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  dot_S100000x128_S128x64_S100000x64_1_0_0_1_n_n_wf : DotDims.WF S100000x128 S128x64 S100000x64 [1] [0] [0] [1] [] []
  dot_S3200000x16_S16x64_S3200000x64_1_0_0_1_n_n_wf : DotDims.WF S3200000x16 S16x64 S3200000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S3200000x16_S16x64_S3200000x64_1_0_0_1_n_n : DotDims S3200000x16 S16x64 S3200000x64 where
  lhsContracting := [1]
  rhsContracting := [0]
  lhsNonContracting := [0]
  rhsNonContracting := [1]
  lhsBatch := []
  rhsBatch := []
  wf := dot_S3200000x16_S16x64_S3200000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.Spec.lean ====
import Idealize.ShloMosaic.PureOps.Ideal
import Idealize.ShloMosaic.Lib.ValueIdx

noncomputable section

namespace Gnn

open Idealize.ShloMosaic Idealize.ShloMosaic.ValueIdx

def toMat {n m : ℕ} (a : (⟨2, ![n, m]⟩ : Shape).Idx → EReal) : Fin n → Fin m → EReal := fun r c => a (ix2 r c)

def ofMat {n m : ℕ} (f : Fin n → Fin m → EReal) : (⟨2, ![n, m]⟩ : Shape).Idx → EReal := fun j => f (j 0) (j 1)

def toVec {n : ℕ} (a : (⟨1, ![n]⟩ : Shape).Idx → EReal) : Fin n → EReal := fun q => a (ix1 q)

def ofVec {n : ℕ} (f : Fin n → EReal) : (⟨1, ![n]⟩ : Shape).Idx → EReal := fun j => f (j 0)

def rowOf {m : ℕ} (a : (⟨2, ![1, m]⟩ : Shape).Idx → EReal) : Fin m → EReal := fun q => a (ix2 0 q)

def ofRow {m : ℕ} (f : Fin m → EReal) : (⟨2, ![1, m]⟩ : Shape).Idx → EReal := fun j => f (j 1)

theorem ofMat_toMat {n m : ℕ} (a : (⟨2, ![n, m]⟩ : Shape).Idx → EReal) : ofMat (toMat a) = a := by
  funext j; exact congrArg a (eq_ix2 j).symm
theorem toMat_ofMat {n m : ℕ} (f : Fin n → Fin m → EReal) : toMat (ofMat f) = f := rfl
theorem ofVec_toVec {n : ℕ} (a : (⟨1, ![n]⟩ : Shape).Idx → EReal) : ofVec (toVec a) = a := by
  funext j; exact congrArg a (eq_ix1 j).symm
theorem toVec_ofVec {n : ℕ} (f : Fin n → EReal) : toVec (ofVec f) = f := rfl
theorem rowOf_ofRow {m : ℕ} (f : Fin m → EReal) : rowOf (ofRow f) = f := rfl

variable {n k m : ℕ}

def lin (x : Fin n → Fin k → EReal) (w : Fin k → Fin m → EReal) (b : Fin m → EReal) : Fin n → Fin m → EReal :=
  fun r c => (∑ q : Fin k, x r q * w q c) + b c

def relu (x : Fin n → Fin m → EReal) : Fin n → Fin m → EReal := fun r c => max (x r c) 0

def madd (a b : Fin n → Fin m → EReal) : Fin n → Fin m → EReal := fun r c => a r c + b r c

def addRelu (a b : Fin n → Fin m → EReal) : Fin n → Fin m → EReal := fun r c => max (a r c + b r c) 0

def mlp (z : Fin n → Fin k → EReal) (w1 : Fin k → Fin k → EReal) (b1 : Fin k → EReal) (w2 : Fin k → Fin m → EReal)
    (b2 : Fin m → EReal) : Fin n → Fin m → EReal := lin (relu (lin z w1 b1)) w2 b2

def colsum (z : Fin n → Fin m → EReal) : Fin m → EReal := fun c => ∑ r : Fin n, z r c

def colsumsq (z : Fin n → Fin m → EReal) : Fin m → EReal := fun c => ∑ r : Fin n, z r c * z r c

def nodes : EReal := Ideal.ofBits .f32 0x47C35000#32

def epsBN : EReal := Ideal.ofBits .f32 0x3727C5AC#32

def meanOf (s : Fin m → EReal) : Fin m → EReal := fun c => Ideal.div (s c) nodes

def varK (s ss : Fin m → EReal) : Fin m → EReal := fun c => Ideal.div (ss c) nodes - meanOf s c * meanOf s c

def varR (z : Fin n → Fin m → EReal) (mu : Fin m → EReal) : Fin m → EReal :=
  fun c => Ideal.div (∑ r : Fin n, (z r c - mu c) * (z r c - mu c)) nodes

def bnRelu (z : Fin n → Fin m → EReal) (mean var g b : Fin m → EReal) : Fin n → Fin m → EReal :=
  fun r c => max ((z r c - mean c) * Ideal.rsqrt (var c + epsBN) * g c + b c) 0

def Real2 (x : Fin n → Fin m → EReal) : Prop := ∀ r c, ∃ v : ℝ, x r c = (v : EReal)

def Real1 (x : Fin m → EReal) : Prop := ∀ c, ∃ v : ℝ, x c = (v : EReal)

def RealA {S : Shape} (a : S.Idx → EReal) : Prop := ∀ i, ∃ v : ℝ, a i = (v : EReal)

theorem real2_toMat {n m : ℕ} {a : (⟨2, ![n, m]⟩ : Shape).Idx → EReal} (h : RealA a) : Real2 (toMat a) := fun r c => h (ix2 r c)
theorem real1_toVec {n : ℕ} {a : (⟨1, ![n]⟩ : Shape).Idx → EReal} (h : RealA a) : Real1 (toVec a) := fun q => h (ix1 q)
theorem real1_rowOf {m : ℕ} {a : (⟨2, ![1, m]⟩ : Shape).Idx → EReal} (h : RealA a) : Real1 (rowOf a) := fun q => h (ix2 0 q)
theorem realA_ofMat {n m : ℕ} {f : Fin n → Fin m → EReal} (h : Real2 f) : RealA (ofMat f) := fun j => h (j 0) (j 1)

end Gnn

end
-- ==== Proof.KRows.lean ====
import proofs.«427245_j11416023073365_2_alg».proof.Proof.Spec
import Idealize.ShloMosaic.Lib.Pipeline.Value
import Idealize.ShloMosaic.Lib.StackMember
import Idealize.ShloMosaic.PureOps.Ideal.Laws

noncomputable section

namespace RowBlocks

open Gnn Idealize.ShloMosaic Idealize.ShloMosaic.ValueIdx Idealize.ShloMosaic.Pipeline

theorem zeros2 : (![0, 0] : Fin 2 → ℕ) = fun _ => 0 := funext fun a => by fin_cases a <;> rfl

/-- Two positions, each a block index times one block size plus one inner coordinate, agree when the block indices do. -/
theorem val_eq {b b' s j x y : ℕ} (h : b = b') (hx : x = b * s + j) (hy : y = b' * s + j) : x = y := by
  subst h; exact hx.trans hy.symm

/-- So do two rank-2 indices that are such on each axis. -/
theorem emb_eq {n : Fin 2 → ℕ} {x y : (a : Fin 2) → Fin (n a)} {b b' s j : Fin 2 → ℕ} (h : b = b')
    (hx : ∀ a, (x a : ℕ) = b a * s a + j a) (hy : ∀ a, (y a : ℕ) = b' a * s a + j a) : x = y :=
  Shape.idx_ext₂ (val_eq (congrFun h 0) (hx 0) (hy 0)) (val_eq (congrFun h 1) (hx 1) (hy 1))

/-- An index of a one-row array is fixed by its column. -/
theorem row_at {α : Type} {m : ℕ} (x : (⟨2, ![1, m]⟩ : Shape).Idx → α) {y : (⟨2, ![1, m]⟩ : Shape).Idx} {q : Fin m}
    (h : (y 1 : ℕ) = q) : x y = x (ix2 0 q) :=
  congrArg x (Shape.idx_ext₂ (Nat.lt_one_iff.mp (y 0).isLt) h)

/-- One row repeated down `n` rows reads, at row p and column q, the row's entry q. -/
theorem bcast_row {α : Type} {n m : ℕ} (x : (⟨2, ![1, m]⟩ : Shape).Idx → α)
    (h : (⟨2, ![1, m]⟩ : Shape).Broadcasts ⟨2, ![n, m]⟩) (p : Fin n) (q : Fin m) :
    broadcastTo ⟨2, ![n, m]⟩ x h (ix2 p q) = x (ix2 0 q) :=
  broadcastTo_apply x h _ _ fun a => by
    match a with
    | ⟨0, _⟩ => rfl
    | ⟨1, _⟩ => show q.val = if m = 1 then 0 else q.val; split <;> omega

/-- An n×k block times a k×m block added to zero, at row p and column q: the inner product. -/
theorem mm_apply {n k m : ℕ} {φ₁ φ₂ : FTy} (x : FVec Ideal ⟨2, ![n, k]⟩ φ₁) (w : FVec Ideal ⟨2, ![k, m]⟩ φ₂) (p : Fin n) (q : Fin m) :
    matmul (DotDims.plain n k m) none x w (constant (F := Ideal) ⟨2, ![n, m]⟩ .f32 0x00000000#32) (ix2 p q)
      = ∑ c : Fin k, x (ix2 p c) * w (ix2 c q) := by
  rw [matmul_zero_eq_dotGeneral]; exact StackMember.dotGeneral_plain_apply none x w p q

/-- A block row against a block column plus a bias entry is the affine map of whole arrays at `i` once each factor is the arrays' at `i`. -/
theorem lin_at_of {N n k m : ℕ} (X : (⟨2, ![N, k]⟩ : Shape).Idx → EReal) (W : (⟨2, ![k, m]⟩ : Shape).Idx → EReal)
    (B : (⟨2, ![1, m]⟩ : Shape).Idx → EReal) (x : (⟨2, ![n, k]⟩ : Shape).Idx → EReal) (w : (⟨2, ![k, m]⟩ : Shape).Idx → EReal)
    (b : (⟨2, ![1, m]⟩ : Shape).Idx → EReal) (p : Fin n) (q : Fin m) (i : (⟨2, ![N, m]⟩ : Shape).Idx)
    (hx : ∀ c, x (ix2 p c) = X (ix2 (i 0) c)) (hw : ∀ c, w (ix2 c q) = W (ix2 c (i 1))) (hb : b (ix2 0 q) = B (ix2 0 (i 1))) :
    (∑ c : Fin k, x (ix2 p c) * w (ix2 c q)) + b (ix2 0 q) = ofMat (lin (toMat X) (toMat W) (rowOf B)) i := by
  rw [hb]; exact congrArg (· + B (ix2 0 (i 1))) (Finset.sum_congr rfl fun c _ => by rw [hx c, hw c]; rfl)

/-- The rectified sum of two entries is that of the whole arrays at `i` once the entries are the arrays' at `i`. -/
theorem addRelu_at_of {N m : ℕ} (A B : (⟨2, ![N, m]⟩ : Shape).Idx → EReal) {a b : EReal} (i : (⟨2, ![N, m]⟩ : Shape).Idx)
    (ha : a = A i) (hb : b = B i) : max (a + b) 0 = ofMat (addRelu (toMat A) (toMat B)) i := by
  rw [ha, hb, congrArg A (eq_ix2 i), congrArg B (eq_ix2 i)]; rfl

/-- A normalised, rectified block entry is that of the whole arrays at `i` once the entry and the four row entries are the arrays' at `i`. -/
theorem bnRelu_at_of {N n m : ℕ} (z : (⟨2, ![N, m]⟩ : Shape).Idx → EReal) (mean var g b : (⟨2, ![1, m]⟩ : Shape).Idx → EReal)
    (zb : (⟨2, ![n, m]⟩ : Shape).Idx → EReal) (mb vb gb bb : (⟨2, ![1, m]⟩ : Shape).Idx → EReal) (p : Fin n) (q : Fin m)
    (i : (⟨2, ![N, m]⟩ : Shape).Idx) (hz : zb (ix2 p q) = z i) (hm : mb (ix2 0 q) = mean (ix2 0 (i 1)))
    (hv : vb (ix2 0 q) = var (ix2 0 (i 1))) (hg : gb (ix2 0 q) = g (ix2 0 (i 1))) (hb : bb (ix2 0 q) = b (ix2 0 (i 1))) :
    max ((zb (ix2 p q) - mb (ix2 0 q)) * Ideal.rsqrt (vb (ix2 0 q) + epsBN) * gb (ix2 0 q) + bb (ix2 0 q)) 0
      = ofMat (bnRelu (toMat z) (rowOf mean) (rowOf var) (rowOf g) (rowOf b)) i := by
  rw [hz, hm, hv, hg, hb, congrArg z (eq_ix2 i)]; rfl

/-- Blocks of `R` positions along one axis, whole on the others, block `t` at block index `t`: an index lies in the block of its position divided by `R`. -/
theorem exists_mem_rect {sig : RefSig} {G : Grid} (w : Window sig G) (a₀ : Fin w.shape.rank) (R : ℕ)
    (hix : ∀ t a, w.index t a = if a = a₀ then t.val else 0)
    (hsz : ∀ a, w.size a = if a = a₀ then R else w.shape.size a)
    (hx : ∀ t a, w.xsize (G.coords t) a = w.size a)
    (hN : G.N * R = w.shape.size a₀) (i : w.shape.Idx) : ∃ t : Fin G.N, i ∈ (w.rect t).set := by
  have hi := (i a₀).isLt
  have hR : 0 < R := Nat.pos_of_ne_zero fun h => by rw [h, Nat.mul_zero] at hN; omega
  have ht : (i a₀).val / R < G.N := by rw [Nat.div_lt_iff_lt_mul hR, hN]; exact hi
  refine ⟨⟨_, ht⟩, Rect.mem_set_unit.mpr fun a => ?_⟩
  show w.index ⟨_, ht⟩ a * w.size a ≤ (i a : ℕ) ∧ (i a : ℕ) < w.index ⟨_, ht⟩ a * w.size a + w.xsize _ a
  rw [hx, hix, hsz]
  by_cases h : a = a₀
  · subst h; rw [if_pos rfl, if_pos rfl]; exact ⟨Nat.div_mul_le_self _ _, Nat.lt_div_mul_add hR⟩
  · rw [if_neg h, if_neg h, Nat.zero_mul, Nat.zero_add]; exact ⟨Nat.zero_le _, (i a).isLt⟩

end RowBlocks

end
-- ==== Proof.KLin0.lean ====
import proofs.«427245_j11416023073365_2_alg».proof.Proof.Gen.KernelIdeal.Frame
import proofs.«427245_j11416023073365_2_alg».proof.Proof.KRows

noncomputable section

namespace Cert.KernelIdeal.Val

open Cert.KernelIdeal Cert.KernelIdeal.Gen Gnn RowBlocks Idealize.ShloMosaic Idealize.ShloMosaic.ValueIdx Idealize.ShloMosaic.TcCoe

variable (V : (c : Dev nD) → (b : Ref sig .tc) → Buf (Elt Ideal) ((c : Thread nD τ).loc b)) (c : Dev nD)

theorem lin0_pay (x : Vec Ideal S5000x128 .f32) (w : Vec Ideal S128x64 .f32) (b : Vec Ideal S1x64 .f32) (p : Fin 5000) (q : Fin 64) :
    k0_pay1 (F := Ideal) x w b (ix2 p q) = (∑ k : Fin 128, x (ix2 p k) * w (ix2 k q)) + b (ix2 0 q) := by
  unfold k0_pay1
  rw [addf_apply, shapeCast_self, bcast_row]
  exact congrArg (· + b (ix2 0 q)) (mm_apply _ _ p q)

theorem lin0_index : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0 ∧ win0_2.index t (1 : Fin 2) = 0 ∧ win0_3.index t (1 : Fin 2) = 0 :=
  (by decide +kernel : ∀ t : Fin grid0.N, _)

/-- Point t writes back block t of the affine map of the whole arrays. -/
theorem lin0_flushed (t : Fin cfg0.N) : (dat0 (F := Ideal) V c).flushed 3 t
    = ((cfg0.win 3).blk t).view.read (Elt Ideal) (ofMat (lin (toMat (V c main_arg0)) (toMat (V c main_arg4)) (rowOf (V c main_v4)))) := by
  show (cfg0.win 3).cut (grid0.coords t) ((dat0 (F := Ideal) V c).after 3 t) = _
  rw [after0_3]
  unfold out0_3
  rw [View.canon_unit_zero zeros2]
  simp only [View.ld_unit_zero (S := S5000x128) zeros2, View.ld_unit_zero (S := S128x64) zeros2, View.ld_unit_zero (S := S1x64) zeros2]
  funext j
  obtain ⟨p, q, rfl⟩ : ∃ (p : Fin 5000) (q : Fin 64), j = ix2 p q := ⟨j 0, j 1, eq_ix2 j⟩
  obtain ⟨e00, e01, e10, e11, e21, e31⟩ := lin0_index t
  have hq := (win0_3.rect_emb_val_of_index_zero t 1 e31 (ix2 p q)).symm
  exact (lin0_pay _ _ _ p q).trans (lin_at_of (V c main_arg0) (V c main_arg4) (V c main_v4) (iblk0 V c 0 t) (iblk0 V c 1 t) (iblk0 V c 2 t) p q
    (((cfg0.win 3).blk t).view.emb (ix2 p q))
    (fun k => congrArg (V c main_arg0 : S100000x128.Idx → EReal) (Shape.idx_ext₂
      (val_eq e00 (win0_0.rect_emb_val t (ix2 p k) 0) (win0_3.rect_emb_val t (ix2 p q) 0)) (win0_0.rect_emb_val_of_index_zero t 1 e01 (ix2 p k))))
    (fun k => congrArg (V c main_arg4 : S128x64.Idx → EReal) (Shape.idx_ext₂
      (win0_1.rect_emb_val_of_index_zero t 0 e10 (ix2 k q)) ((win0_1.rect_emb_val_of_index_zero t 1 e11 (ix2 k q)).trans hq)))
    (row_at (V c main_v4 : S1x64.Idx → EReal) ((win0_2.rect_emb_val_of_index_zero t 1 e21 (ix2 0 q)).trans hq)))

/-- The 20 blocks of 5000 rows tile the array, so it ends as the affine map of the rows, the weight and the bias row. -/
theorem lin0_value : (dat0 (F := Ideal) V c).arrAt 3 cfg0.N = ofMat (lin (toMat (V c main_arg0)) (toMat (V c main_arg4)) (rowOf (V c main_v4))) :=
  (dat0 (F := Ideal) V c).arrAt_eq_of_cover 3 _ (fun t _ => lin0_flushed V c t) fun i =>
    (exists_mem_rect win0_3 ⟨0, by decide⟩ 5000 (by decide +kernel) (by decide) (fun _ _ => rfl) (by decide) i).imp fun t h =>
      ⟨flush0_3 t, (congrArg (i ∈ ·) (View.set_slice_whole main_v5 (win0_3.rect t))).mpr h⟩

end Cert.KernelIdeal.Val

end
-- ==== Proof.KLin1.lean ====
import proofs.«427245_j11416023073365_2_alg».proof.Proof.Gen.KernelIdeal.Frame
import proofs.«427245_j11416023073365_2_alg».proof.Proof.KRows

noncomputable section

namespace Cert.KernelIdeal.Val

open Cert.KernelIdeal Cert.KernelIdeal.Gen Gnn RowBlocks Idealize.ShloMosaic Idealize.ShloMosaic.ValueIdx Idealize.ShloMosaic.TcCoe

variable (V : (c : Dev nD) → (b : Ref sig .tc) → Buf (Elt Ideal) ((c : Thread nD τ).loc b)) (c : Dev nD)

theorem lin1_pay (x : Vec Ideal S8000x16 .f32) (w : Vec Ideal S16x64 .f32) (b : Vec Ideal S1x64 .f32) (p : Fin 8000) (q : Fin 64) :
    k1_pay1 (F := Ideal) x w b (ix2 p q) = (∑ k : Fin 16, x (ix2 p k) * w (ix2 k q)) + b (ix2 0 q) := by
  unfold k1_pay1
  rw [addf_apply, shapeCast_self, bcast_row]
  exact congrArg (· + b (ix2 0 q)) (mm_apply _ _ p q)

theorem lin1_index : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0 ∧ win1_2.index t (1 : Fin 2) = 0 ∧ win1_3.index t (1 : Fin 2) = 0 :=
  (by decide +kernel : ∀ t : Fin grid1.N, _)

/-- Point t writes back block t of the affine map of the whole arrays. -/
theorem lin1_flushed (t : Fin cfg1.N) : (dat1 (F := Ideal) V c).flushed 3 t
    = ((cfg1.win 3).blk t).view.read (Elt Ideal) (ofMat (lin (toMat (V c main_arg1)) (toMat (V c main_arg6)) (rowOf (V c main_v6)))) := by
  show (cfg1.win 3).cut (grid1.coords t) ((dat1 (F := Ideal) V c).after 3 t) = _
  rw [after1_3]
  unfold out1_3
  rw [View.canon_unit_zero zeros2]
  simp only [View.ld_unit_zero (S := S8000x16) zeros2, View.ld_unit_zero (S := S16x64) zeros2, View.ld_unit_zero (S := S1x64) zeros2]
  funext j
  obtain ⟨p, q, rfl⟩ : ∃ (p : Fin 8000) (q : Fin 64), j = ix2 p q := ⟨j 0, j 1, eq_ix2 j⟩
  obtain ⟨e00, e01, e10, e11, e21, e31⟩ := lin1_index t
  have hq := (win1_3.rect_emb_val_of_index_zero t 1 e31 (ix2 p q)).symm
  exact (lin1_pay _ _ _ p q).trans (lin_at_of (V c main_arg1) (V c main_arg6) (V c main_v6) (iblk1 V c 0 t) (iblk1 V c 1 t) (iblk1 V c 2 t) p q
    (((cfg1.win 3).blk t).view.emb (ix2 p q))
    (fun k => congrArg (V c main_arg1 : S3200000x16.Idx → EReal) (Shape.idx_ext₂
      (val_eq e00 (win1_0.rect_emb_val t (ix2 p k) 0) (win1_3.rect_emb_val t (ix2 p q) 0)) (win1_0.rect_emb_val_of_index_zero t 1 e01 (ix2 p k))))
    (fun k => congrArg (V c main_arg6 : S16x64.Idx → EReal) (Shape.idx_ext₂
      (win1_1.rect_emb_val_of_index_zero t 0 e10 (ix2 k q)) ((win1_1.rect_emb_val_of_index_zero t 1 e11 (ix2 k q)).trans hq)))
    (row_at (V c main_v6 : S1x64.Idx → EReal) ((win1_2.rect_emb_val_of_index_zero t 1 e21 (ix2 0 q)).trans hq)))

/-- The 400 blocks of 8000 rows tile the array, so it ends as the affine map of the rows, the weight and the bias row. -/
theorem lin1_value : (dat1 (F := Ideal) V c).arrAt 3 cfg1.N = ofMat (lin (toMat (V c main_arg1)) (toMat (V c main_arg6)) (rowOf (V c main_v6))) :=
  (dat1 (F := Ideal) V c).arrAt_eq_of_cover 3 _ (fun t _ => lin1_flushed V c t) fun i =>
    (exists_mem_rect win1_3 ⟨0, by decide⟩ 8000 (by decide +kernel) (by decide) (fun _ _ => rfl) (by decide) i).imp fun t h =>
      ⟨flush1_3 t, (congrArg (i ∈ ·) (View.set_slice_whole main_v7 (win1_3.rect t))).mpr h⟩

end Cert.KernelIdeal.Val

end
-- ==== Proof.KMsg2.lean ====
import proofs.«427245_j11416023073365_2_alg».proof.Proof.Gen.KernelIdeal.Frame
import proofs.«427245_j11416023073365_2_alg».proof.Proof.KRows

noncomputable section

namespace Cert.KernelIdeal.Val

open Cert.KernelIdeal Cert.KernelIdeal.Gen Gnn RowBlocks Idealize.ShloMosaic Idealize.ShloMosaic.ValueIdx Idealize.ShloMosaic.TcCoe

variable (V : (c : Dev nD) → (b : Ref sig .tc) → Buf (Elt Ideal) ((c : Thread nD τ).loc b)) (c : Dev nD)

theorem msg2_pay (x0 x1 : Vec Ideal S8000x64 .f32) (j : S8000x64.Idx) : k2_pay1 (F := Ideal) x0 x1 j = max (x0 j + x1 j) 0 := by
  unfold k2_pay1
  simp only [shapeCast_self]
  exact congrArg (max _) Ideal.ofBits_zero_f32

theorem msg2_index : ∀ t : Fin cfg2.N, win2_0.index t = win2_2.index t ∧ win2_1.index t = win2_2.index t :=
  (by decide +kernel : ∀ t : Fin grid2.N, _)

/-- Point t writes back block t of the rectified sum of the two whole arrays. -/
theorem msg2_flushed (t : Fin cfg2.N) : (dat2 (F := Ideal) V c).flushed 2 t
    = ((cfg2.win 2).blk t).view.read (Elt Ideal) (ofMat (addRelu (toMat (V c main_v8)) (toMat (V c main_v7)))) := by
  show (cfg2.win 2).cut (grid2.coords t) ((dat2 V c).after 2 t) = _
  rw [after2_2]
  unfold out2_2
  rw [View.canon_unit_zero zeros2]
  simp only [View.ld_unit_zero (S := S8000x64) zeros2]
  funext j
  obtain ⟨e0, e1⟩ := msg2_index t
  exact (msg2_pay _ _ _).trans (addRelu_at_of (V c main_v8) (V c main_v7) (((cfg2.win 2).blk t).view.emb j)
    (congrArg (V c main_v8 : S3200000x64.Idx → EReal) (emb_eq e0 (win2_0.rect_emb_val t j) (win2_2.rect_emb_val t j)))
    (congrArg (V c main_v7 : S3200000x64.Idx → EReal) (emb_eq e1 (win2_1.rect_emb_val t j) (win2_2.rect_emb_val t j))))

/-- The 400 blocks of 8000 rows tile the array, so it ends as the rectified sum of the gathered node rows and the edge rows. -/
theorem msg2_value : (dat2 (F := Ideal) V c).arrAt 2 cfg2.N = ofMat (addRelu (toMat (V c main_v8)) (toMat (V c main_v7))) :=
  (dat2 (F := Ideal) V c).arrAt_eq_of_cover 2 _ (fun t _ => msg2_flushed V c t) fun i =>
    (exists_mem_rect win2_2 ⟨0, by decide⟩ 8000 (by decide +kernel) (by decide) (fun _ _ => rfl) (by decide) i).imp fun t h =>
      ⟨flush2_2 t, (congrArg (i ∈ ·) (View.set_slice_whole main_v9 (win2_2.rect t))).mpr h⟩

end Cert.KernelIdeal.Val

end
-- ==== Proof.KMlpMath.lean ====
import proofs.«427245_j11416023073365_2_alg».proof.Proof.Gen.KernelIdeal.Frame
import proofs.«427245_j11416023073365_2_alg».proof.Proof.KRows
import Idealize.ShloMosaic.Lib.Pipeline.Value
import Idealize.ShloMosaic.Lib.ValueLayout
import Idealize.ShloMosaic.PureOps.Ideal.Laws

noncomputable section

namespace Cert.KernelIdeal.Val.Mlp

open Cert.KernelIdeal Cert.KernelIdeal.Gen Gnn Idealize.ShloMosaic Idealize.ShloMosaic.ValueIdx Idealize.ShloMosaic.TcCoe

theorem mm_apply {φ₁ φ₂ : FTy} (A : FVec Ideal S5000x64 φ₁) (W : FVec Ideal S64x64 φ₂) (p : Fin 5000) (q : Fin 64) :
    matmul dot_S5000x64_S64x64_S5000x64_1_0_0_1_n_n none A W (constant S5000x64 .f32 0x00000000#32) (ix2 p q)
      = ∑ k : Fin 64, A (ix2 p k) * W (ix2 k q) :=
  RowBlocks.mm_apply A W p q

theorem bias_apply (b : FVec Ideal S1x64 .f32) (p : Fin 5000) (q : Fin 64) :
    broadcastTo S5000x64 b broadcasts_S1x64_S5000x64 (ix2 p q) = rowOf b q :=
  broadcastTo_1b_ab_apply b broadcasts_S1x64_S5000x64 p q

abbrev blkMlp (x0 x1 : Vec Ideal S5000x64 .f32) (x2 : Vec Ideal S64x64 .f32) (x3 : Vec Ideal S1x64 .f32)
    (x4 : Vec Ideal S64x64 .f32) (x5 : Vec Ideal S1x64 .f32) : Fin 5000 → Fin 64 → EReal :=
  mlp (madd (toMat x0) (toMat x1)) (toMat x2) (rowOf x3) (toMat x4) (rowOf x5)

theorem pay4_apply (x0 x1 : Vec Ideal S5000x64 .f32) (x2 : Vec Ideal S64x64 .f32) (x3 : Vec Ideal S1x64 .f32)
    (x4 : Vec Ideal S64x64 .f32) (x5 : Vec Ideal S1x64 .f32) (p : Fin 5000) (q : Fin 64) :
    k3_pay4 x0 x1 x2 x3 x4 x5 (ix2 p q) = blkMlp x0 x1 x2 x3 x4 x5 p q := by
  unfold k3_pay4
  simp only [addf_apply, maximumf_apply, truncf_apply, broadcast_apply, mm_apply, shapeCast_self, bias_apply,
    Scalar.ofBits, Ideal.ofBits_def, Ideal.ofBits_zero_f32]
  rfl

theorem colred_apply (src : FVec Ideal S5000x64 .f32) (hφ : FKind.Formats .f32)
    (hacc : (0x00000000#32 : BitVec FTy.f32.bits) = FKind.add.neutral .f32 hφ) (q : Fin 64) :
    multiReduction .add [0] S64 src 0x00000000#32 reduces_S5000x64_S64 hφ hacc (ix1 q) = ∑ r : Fin 5000, src (ix2 r q) := by
  refine (Ideal.multiReduction_add_single src 0x00000000#32 reduces_S5000x64_S64 hφ hacc (ix1 q)).trans ?_
  refine Finset.sum_congr rfl fun r _ => congrArg src ?_
  funext c; apply Fin.ext
  match c with
  | ⟨0, _⟩ => rfl
  | ⟨1, _⟩ => rfl

theorem pay5_apply (x0 x1 : Vec Ideal S5000x64 .f32) (x2 : Vec Ideal S64x64 .f32) (x3 : Vec Ideal S1x64 .f32)
    (x4 : Vec Ideal S64x64 .f32) (x5 : Vec Ideal S1x64 .f32) (acc : Vec Ideal S1x64 .f32) (u : Fin 1) (q : Fin 64) :
    k3_pay5 x0 x1 x2 x3 x4 x5 acc (ix2 u q) = acc (ix2 u q) + ∑ r : Fin 5000, k3_pay4 x0 x1 x2 x3 x4 x5 (ix2 r q) := by
  unfold k3_pay5
  simp only [addf_apply, shapeCast_self, shapeCast_a_1a_apply]
  exact congrArg (acc (ix2 u q) + ·) (colred_apply _ _ _ q)

theorem pay1_apply (z : FVec Ideal S5000x64 .f32) (acc : Vec Ideal S1x64 .f32) (u : Fin 1) (q : Fin 64) :
    k3_pay1 z acc (ix2 u q) = acc (ix2 u q) + ∑ r : Fin 5000, z (ix2 r q) * z (ix2 r q) := by
  unfold k3_pay1
  simp only [addf_apply, shapeCast_self, shapeCast_a_1a_apply]
  exact congrArg (acc (ix2 u q) + ·) (colred_apply _ _ _ q)

theorem pay2_apply (j : S1x64.Idx) : k3_pay2 (F := Ideal) j = 0 := by
  unfold k3_pay2
  simp only [broadcast_apply, Scalar.ofBits, Ideal.ofBits_def, Ideal.ofBits_zero_f32]
theorem pay3_apply (j : S1x64.Idx) : k3_pay3 (F := Ideal) j = 0 := by
  unfold k3_pay3
  simp only [broadcast_apply, Scalar.ofBits, Ideal.ofBits_def, Ideal.ofBits_zero_f32]

theorem mlp_row_congr {n n' k m : ℕ} (z : Fin n → Fin k → EReal) (z' : Fin n' → Fin k → EReal) (w1 : Fin k → Fin k → EReal)
    (b1 : Fin k → EReal) (w2 : Fin k → Fin m → EReal) (b2 : Fin m → EReal) (r : Fin n) (r' : Fin n')
    (h : ∀ j, z r j = z' r' j) (c : Fin m) : mlp z w1 b1 w2 b2 r c = mlp z' w1 b1 w2 b2 r' c := by
  unfold mlp lin relu
  simp only [h]

def ext0 (f : Fin 100000 → EReal) (i : ℕ) : EReal := if h : i < 100000 then f ⟨i, h⟩ else 0

theorem sum_ext0_all (f : Fin 100000 → EReal) : ∑ i ∈ Finset.range 100000, ext0 f i = ∑ r : Fin 100000, f r := by
  rw [Finset.sum_range]
  exact Finset.sum_congr rfl fun r _ => by unfold ext0; rw [dif_pos r.isLt]

theorem sum_ext0_last (f : Fin 100000 → EReal) (n : ℕ) (hn : n = 19) :
    ∑ i ∈ Finset.range ((n + 1) * 5000), ext0 f i = ∑ r : Fin 100000, f r := by
  subst hn; exact sum_ext0_all f

theorem sum_ext0_blk (f : Fin 100000 → EReal) (n : ℕ) (hn : n < 20) :
    ∑ x ∈ Finset.range 5000, ext0 f (n * 5000 + x)
      = ∑ p : Fin 5000, f ⟨n * 5000 + p.val, by have := p.isLt; omega⟩ := by
  rw [Finset.sum_range]
  exact Finset.sum_congr rfl fun p _ => by unfold ext0; rw [dif_pos]

theorem acc_step (f : Fin 100000 → EReal) (n : ℕ) (hn : n < 20) (a b : EReal)
    (ha : a = ∑ i ∈ Finset.range (n * 5000), ext0 f i)
    (hb : b = ∑ p : Fin 5000, f ⟨n * 5000 + p.val, by have := p.isLt; omega⟩) :
    a + b = ∑ i ∈ Finset.range ((n + 1) * 5000), ext0 f i := by
  rw [show (n + 1) * 5000 = n * 5000 + 5000 by ring, Finset.sum_range_add, sum_ext0_blk f n hn, ha, hb]

theorem pay4_row (x0 x1 : Vec Ideal S5000x64 .f32) (x2 : Vec Ideal S64x64 .f32) (x3 : Vec Ideal S1x64 .f32)
    (x4 : Vec Ideal S64x64 .f32) (x5 : Vec Ideal S1x64 .f32) {n : ℕ} (X0 X1 : Fin n → Fin 64 → EReal) (p : Fin 5000)
    (r : Fin n) (q : Fin 64) (h0 : ∀ j, x0 (ix2 p j) = X0 r j) (h1 : ∀ j, x1 (ix2 p j) = X1 r j) :
    k3_pay4 x0 x1 x2 x3 x4 x5 (ix2 p q) = mlp (madd X0 X1) (toMat x2) (rowOf x3) (toMat x4) (rowOf x5) r q :=
  (pay4_apply x0 x1 x2 x3 x4 x5 p q).trans
    (mlp_row_congr _ _ _ _ _ _ p r (fun j => congrArg₂ (· + ·) (h0 j) (h1 j)) q)

/-- Starting at the first block's sum and adding the next block's at each later point gives the sum over the rows so far. -/
theorem run_sum {N : ℕ} (hN : N = 20) (f : Fin 100000 → EReal) (s : (n : ℕ) → n < N → EReal)
    (h0 : ∀ h, s 0 h = 0 + ∑ p : Fin 5000, f ⟨0 * 5000 + p.val, by have := p.isLt; omega⟩)
    (hs : ∀ n (h : n + 1 < N), s (n + 1) h
      = s n (Nat.lt_of_succ_lt h) + ∑ p : Fin 5000, f ⟨(n + 1) * 5000 + p.val, by have := p.isLt; omega⟩) :
    ∀ n (h : n < N), s n h = ∑ i ∈ Finset.range ((n + 1) * 5000), ext0 f i
  | 0, h => (h0 h).trans (acc_step f 0 (by omega) _ _ (by simp) rfl)
  | n + 1, h => (hs n h).trans (acc_step f (n + 1) (by omega) _ _ (run_sum hN f s h0 hs n _) rfl)

end Cert.KernelIdeal.Val.Mlp
end
-- ==== Proof.KMlp3.lean ====
import proofs.«427245_j11416023073365_2_alg».proof.Proof.KMlpMath

noncomputable section

namespace Cert.KernelIdeal.Val

open Cert.KernelIdeal Cert.KernelIdeal.Gen Gnn Idealize.ShloMosaic Idealize.ShloMosaic.ValueIdx Idealize.ShloMosaic.TcCoe
open Mlp
open RowBlocks (zeros2)

def z2of3 (V : (c : Dev nD) → (b : Ref sig .tc) → Buf (Elt Ideal) ((c : Thread nD τ).loc b)) (c : Dev nD) :
    Fin 100000 → Fin 64 → EReal :=
  mlp (madd (toMat (V c main_v5)) (toMat (V c main_v12))) (toMat (V c main_v14)) (rowOf (V c main_v21))
    (toMat (V c main_v18)) (rowOf (V c main_v22))

namespace Mlp3

section Pieces
open Idealize.ShloMosaic.Tactic
variable {F : FTy → Type} [FloatOps F] {c : Dev nD} {i : grid3.Coords}
  {a1 : Memref sig .tc .vmem S5000x64 .f32} {h1 : a1.IsWhole} {a2 : Memref sig .tc .vmem S5000x64 .f32} {h2 : a2.IsWhole}
  {a3 : Memref sig .tc .vmem S64x64 .f32} {h3 : a3.IsWhole} {a4 : Memref sig .tc .vmem S1x64 .f32} {h4 : a4.IsWhole}
  {a5 : Memref sig .tc .vmem S64x64 .f32} {h5 : a5.IsWhole} {a6 : Memref sig .tc .vmem S1x64 .f32} {h6 : a6.IsWhole}
  {a7 : Memref sig .tc .vmem S5000x64 .f32} {h7 : a7.IsWhole} {a8 : Memref sig .tc .vmem S1x64 .f32} {h8 : a8.IsWhole}
  {a9 : Memref sig .tc .vmem S1x64 .f32} {h9 : a9.IsWhole}
  {x0 x1 : Vec F S5000x64 .f32} {x2 : Vec F S64x64 .f32} {x3 : Vec F S1x64 .f32} {x4 : Vec F S64x64 .f32} {x5 : Vec F S1x64 .f32}

section
variable {hc : cond3_0 i}

theorem outs3_A :
    (out3_A_6 c i a1 h1 a2 h2 a3 h3 a4 h4 a5 h5 a6 h6 a7 h7 a8 h8 a9 h9 hc x0 x1 x2 x3 x4 x5,
      out3_A_7 c i a1 h1 a2 h2 a3 h3 a4 h4 a5 h5 a6 h6 a7 h7 a8 h8 a9 h9 hc x0 x1 x2 x3 x4 x5,
      out3_A_8 c i a1 h1 a2 h2 a3 h3 a4 h4 a5 h5 a6 h6 a7 h7 a8 h8 a9 h9 hc x0 x1 x2 x3 x4 x5)
    = (k3_pay4 x0 x1 x2 x3 x4 x5,
      k3_pay5 x0 x1 x2 x3 x4 x5 (k3_pay2 (F := F)),
      k3_pay1 (k3_pay4 x0 x1 x2 x3 x4 x5) (k3_pay3 (F := F))) := by
  unfold out3_A_6 out3_A_7 out3_A_8
  rw [View.read_writes_eq_canon _ _ _ (cover3_A_6 c i a1 h1 a2 h2 a3 h3 a4 h4 a5 h5 a6 h6 a7 h7 a8 h8 a9 h9 hc x0 x1 x2 x3 x4 x5),
    View.read_writes_eq_canon _ _ _ (cover3_A_7 c i a1 h1 a2 h2 a3 h3 a4 h4 a5 h5 a6 h6 a7 h7 a8 h8 a9 h9 hc x0 x1 x2 x3 x4 x5),
    View.read_writes_eq_canon _ _ _ (cover3_A_8 c i a1 h1 a2 h2 a3 h3 a4 h4 a5 h5 a6 h6 a7 h7 a8 h8 a9 h9 hc x0 x1 x2 x3 x4 x5)]
  unfold kernelRun3_A
  dsimp only
  sl_unfold_words
  simp only [View.canon_cons_unit_zero (S := S5000x64) zeros2, View.canon_cons_unit_zero (S := S1x64) zeros2,
    View.readCov_unit_zero (S := S1x64) _ zeros2, View.readAt_eq_ld,
    h1.read_unread, h2.read_unread, h3.read_unread, h4.read_unread, h5.read_unread, h6.read_unread,
    View.ld_unit_zero (S := S5000x64) zeros2, View.ld_unit_zero (S := S64x64) zeros2, View.ld_unit_zero (S := S1x64) zeros2]

end

section
variable {hc : ¬cond3_0 i} {xo7 xo8 : Vec F S1x64 .f32}

theorem outs3_B :
    (out3_B_6 c i a1 h1 a2 h2 a3 h3 a4 h4 a5 h5 a6 h6 a7 h7 a8 h8 a9 h9 hc x0 x1 x2 x3 x4 x5 xo7 xo8,
      out3_B_7 c i a1 h1 a2 h2 a3 h3 a4 h4 a5 h5 a6 h6 a7 h7 a8 h8 a9 h9 hc x0 x1 x2 x3 x4 x5 xo7 xo8,
      out3_B_8 c i a1 h1 a2 h2 a3 h3 a4 h4 a5 h5 a6 h6 a7 h7 a8 h8 a9 h9 hc x0 x1 x2 x3 x4 x5 xo7 xo8)
    = (k3_pay4 x0 x1 x2 x3 x4 x5,
      k3_pay5 x0 x1 x2 x3 x4 x5 xo7,
      k3_pay1 (k3_pay4 x0 x1 x2 x3 x4 x5) xo8) := by
  unfold out3_B_6 out3_B_7 out3_B_8
  rw [View.read_writes_eq_canon _ _ _ (cover3_B_6 c i a1 h1 a2 h2 a3 h3 a4 h4 a5 h5 a6 h6 a7 h7 a8 h8 a9 h9 hc x0 x1 x2 x3 x4 x5 xo7 xo8),
    View.read_writes_eq_canon _ _ _ (cover3_B_7 c i a1 h1 a2 h2 a3 h3 a4 h4 a5 h5 a6 h6 a7 h7 a8 h8 a9 h9 hc x0 x1 x2 x3 x4 x5 xo7 xo8),
    View.read_writes_eq_canon _ _ _ (cover3_B_8 c i a1 h1 a2 h2 a3 h3 a4 h4 a5 h5 a6 h6 a7 h7 a8 h8 a9 h9 hc x0 x1 x2 x3 x4 x5 xo7 xo8)]
  unfold kernelRun3_B
  dsimp only
  sl_unfold_words
  simp only [View.canon_cons_unit_zero (S := S5000x64) zeros2, View.canon_cons_unit_zero (S := S1x64) zeros2,
    View.readCov_unit_zero (S := S1x64) _ zeros2, View.readAt_eq_ld,
    h1.read_unread, h2.read_unread, h3.read_unread, h4.read_unread, h5.read_unread, h6.read_unread, h8.read_unread, h9.read_unread,
    View.ld_unit_zero (S := S5000x64) zeros2, View.ld_unit_zero (S := S64x64) zeros2, View.ld_unit_zero (S := S1x64) zeros2]

end

end Pieces

theorem idx_row : ∀ t : Fin cfg3.N, (win3_0.index t (0 : Fin 2) = t.val ∧ win3_0.index t (1 : Fin 2) = 0)
    ∧ (win3_1.index t (0 : Fin 2) = t.val ∧ win3_1.index t (1 : Fin 2) = 0)
    ∧ win3_6.index t (0 : Fin 2) = t.val ∧ win3_6.index t (1 : Fin 2) = 0 :=
  (by decide +kernel : ∀ t : Fin grid3.N, _)

theorem idx_whole : ∀ (t : Fin cfg3.N) (a : Fin 2), win3_2.index t a = 0 ∧ win3_3.index t a = 0 ∧ win3_4.index t a = 0
    ∧ win3_5.index t a = 0 ∧ win3_7.index t a = 0 ∧ win3_8.index t a = 0 :=
  (by decide +kernel : ∀ t : Fin grid3.N, _)

def rowAt (t : Fin cfg3.N) (p : Fin 5000) : Fin 100000 :=
  ⟨t.val * 5000 + p.val, by
    have h : t.val < 20 := lt_of_lt_of_eq t.isLt (show cfg3.N = 20 from N_3)
    have := p.isLt; omega⟩

section Region
variable (V : (c : Dev nD) → (b : Ref sig .tc) → Buf (Elt Ideal) ((c : Thread nD τ).loc b)) (c : Dev nD)

abbrev blk0 (t : Fin cfg3.N) : Vec Ideal S5000x64 .f32 := iblk3 V c 0 t
abbrev blk1 (t : Fin cfg3.N) : Vec Ideal S5000x64 .f32 := iblk3 V c 1 t
abbrev blk2 (t : Fin cfg3.N) : Vec Ideal S64x64 .f32 := iblk3 V c 2 t
abbrev blk3 (t : Fin cfg3.N) : Vec Ideal S1x64 .f32 := iblk3 V c 3 t
abbrev blk4 (t : Fin cfg3.N) : Vec Ideal S64x64 .f32 := iblk3 V c 4 t
abbrev blk5 (t : Fin cfg3.N) : Vec Ideal S1x64 .f32 := iblk3 V c 5 t

theorem blk0_apply (t : Fin cfg3.N) (p : Fin 5000) (q : Fin 64) :
    blk0 V c t (ix2 p q) = toMat (V c main_v5) (rowAt t p) q := by
  refine congrArg (V c main_v5) (Shape.idx_ext₂ ?_ ?_)
  · exact (win3_0.rect_emb_val t (ix2 p q) 0).trans (congrArg (· * 5000 + p.val) (idx_row t).1.1)
  · exact win3_0.rect_emb_val_of_index_zero t 1 (idx_row t).1.2 (ix2 p q)

theorem blk1_apply (t : Fin cfg3.N) (p : Fin 5000) (q : Fin 64) :
    blk1 V c t (ix2 p q) = toMat (V c main_v12) (rowAt t p) q := by
  refine congrArg (V c main_v12) (Shape.idx_ext₂ ?_ ?_)
  · exact (win3_1.rect_emb_val t (ix2 p q) 0).trans (congrArg (· * 5000 + p.val) (idx_row t).2.1.1)
  · exact win3_1.rect_emb_val_of_index_zero t 1 (idx_row t).2.1.2 (ix2 p q)

theorem blk2_eq (t : Fin cfg3.N) : toMat (blk2 V c t) = toMat (V c main_v14) :=
  funext fun k => funext fun q => congrArg (V c main_v14) (funext fun a =>
    Fin.ext (win3_2.rect_emb_val_of_index_zero t a (idx_whole t a).1 (ix2 k q)))

theorem blk3_eq (t : Fin cfg3.N) : rowOf (blk3 V c t) = rowOf (V c main_v21) :=
  funext fun q => congrArg (V c main_v21) (funext fun a =>
    Fin.ext (win3_3.rect_emb_val_of_index_zero t a (idx_whole t a).2.1 (ix2 0 q)))

theorem blk4_eq (t : Fin cfg3.N) : toMat (blk4 V c t) = toMat (V c main_v18) :=
  funext fun k => funext fun q => congrArg (V c main_v18) (funext fun a =>
    Fin.ext (win3_4.rect_emb_val_of_index_zero t a (idx_whole t a).2.2.1 (ix2 k q)))

theorem blk5_eq (t : Fin cfg3.N) : rowOf (blk5 V c t) = rowOf (V c main_v22) :=
  funext fun q => congrArg (V c main_v22) (funext fun a =>
    Fin.ext (win3_5.rect_emb_val_of_index_zero t a (idx_whole t a).2.2.2.1 (ix2 0 q)))

abbrev zb (t : Fin cfg3.N) : FVec Ideal S5000x64 .f32 :=
  k3_pay4 (blk0 V c t) (blk1 V c t) (blk2 V c t) (blk3 V c t) (blk4 V c t) (blk5 V c t)
abbrev sb (t : Fin cfg3.N) (acc : Vec Ideal S1x64 .f32) : FVec Ideal S1x64 .f32 :=
  k3_pay5 (blk0 V c t) (blk1 V c t) (blk2 V c t) (blk3 V c t) (blk4 V c t) (blk5 V c t) acc
abbrev prev (t : Fin cfg3.N) := outsAt3 V c (t.val - 1) (Nat.lt_of_le_of_lt (Nat.sub_le _ _) t.isLt)

/-- A row of the perceptron depends on that row of its argument only, so a block of it is the perceptron of the block. -/
theorem zb_apply (t : Fin cfg3.N) (p : Fin 5000) (q : Fin 64) :
    zb V c t (ix2 p q) = z2of3 V c (rowAt t p) q := by
  unfold z2of3
  rw [← blk2_eq V c t, ← blk3_eq V c t, ← blk4_eq V c t, ← blk5_eq V c t]
  exact pay4_row _ _ _ _ _ _ _ _ p (rowAt t p) q (blk0_apply V c t p) (blk1_apply V c t p)

theorem outs_A (t : Fin cfg3.N) (h0 : t.val % 20 = 0) :
    outsAt3 V c t.val t.isLt = (zb V c t, sb V c t (k3_pay2 (F := Ideal)), k3_pay1 (zb V c t) (k3_pay3 (F := Ideal))) :=
  (outsAt3_A V c t h0).trans outs3_A

theorem outs_B (t : Fin cfg3.N) (h0 : ¬t.val % 20 = 0) :
    outsAt3 V c t.val t.isLt = (zb V c t, sb V c t (prev V c t).2.1, k3_pay1 (zb V c t) (prev V c t).2.2) :=
  (outsAt3_B V c t h0).trans outs3_B

theorem out6_at (t : Fin cfg3.N) : (outsAt3 V c t.val t.isLt).1 = zb V c t := by
  by_cases h0 : t.val % 20 = 0
  · rw [outs_A V c t h0]
  · rw [outs_B V c t h0]

theorem sum_at (u : Fin 1) (q : Fin 64) : ∀ n (h : n < cfg3.N), ((outsAt3 V c n h).2.1 : Vec Ideal S1x64 .f32) (ix2 u q)
    = ∑ i ∈ Finset.range ((n + 1) * 5000), ext0 (fun r => z2of3 V c r q) i :=
  run_sum (N := cfg3.N) N_3 _ _
    (fun h => (congrArg (fun o => o.2.1 (ix2 u q)) (outs_A V c ⟨0, h⟩ rfl)).trans <| (pay5_apply _ _ _ _ _ _ _ u q).trans <|
      congrArg₂ (· + ·) (pay2_apply _) (Finset.sum_congr rfl fun p _ => zb_apply V c ⟨0, h⟩ p q))
    (fun n h => (congrArg (fun o => o.2.1 (ix2 u q))
        (outs_B V c ⟨n + 1, h⟩ (by have hN : cfg3.N = 20 := N_3; dsimp only; omega))).trans <|
      (pay5_apply _ _ _ _ _ _ _ u q).trans <| congrArg (_ + ·) (Finset.sum_congr rfl fun p _ => zb_apply V c ⟨n + 1, h⟩ p q))

theorem sumsq_at (u : Fin 1) (q : Fin 64) : ∀ n (h : n < cfg3.N), ((outsAt3 V c n h).2.2 : Vec Ideal S1x64 .f32) (ix2 u q)
    = ∑ i ∈ Finset.range ((n + 1) * 5000), ext0 (fun r => z2of3 V c r q * z2of3 V c r q) i :=
  run_sum (N := cfg3.N) N_3 _ _
    (fun h => (congrArg (fun o => o.2.2 (ix2 u q)) (outs_A V c ⟨0, h⟩ rfl)).trans <| (pay1_apply _ _ u q).trans <|
      congrArg₂ (· + ·) (pay3_apply _)
        (Finset.sum_congr rfl fun p _ => congrArg₂ (· * ·) (zb_apply V c ⟨0, h⟩ p q) (zb_apply V c ⟨0, h⟩ p q)))
    (fun n h => (congrArg (fun o => o.2.2 (ix2 u q))
        (outs_B V c ⟨n + 1, h⟩ (by have hN : cfg3.N = 20 := N_3; dsimp only; omega))).trans <|
      (pay1_apply _ _ u q).trans <| congrArg (_ + ·)
        (Finset.sum_congr rfl fun p _ => congrArg₂ (· * ·) (zb_apply V c ⟨n + 1, h⟩ p q) (zb_apply V c ⟨n + 1, h⟩ p q)))

theorem read6_apply (t : Fin cfg3.N) (G : Fin 100000 → Fin 64 → EReal) (p : Fin 5000) (q : Fin 64) :
    (((cfg3.win 6).blk t).view.read (Elt Ideal) (ofMat G) : Vec Ideal S5000x64 .f32) (ix2 p q) = G (rowAt t p) q :=
  congrArg₂ G (Fin.ext ((win3_6.rect_emb_val t (ix2 p q) 0).trans (congrArg (· * 5000 + p.val) (idx_row t).2.2.1)))
    (Fin.ext (win3_6.rect_emb_val_of_index_zero t 1 (idx_row t).2.2.2 (ix2 p q)))

theorem flushed6_eq (t : Fin cfg3.N) :
    (dat3 V c).flushed 6 t = ((cfg3.win 6).blk t).view.read (Elt Ideal) (ofMat (z2of3 V c)) := by
  show (cfg3.win 6).cut (grid3.coords t) ((dat3 V c).after 6 t) = _
  rw [after3_6, out6_at]
  funext y
  obtain ⟨p, q, rfl⟩ : ∃ (p : Fin 5000) (q : Fin 64), y = ix2 p q := ⟨y 0, y 1, eq_ix2 y⟩
  exact (zb_apply V c t p q).trans (read6_apply t (z2of3 V c) p q).symm

theorem cover6 (i : S100000x64.Idx) : ∃ t : Fin cfg3.N, (cfg3.win 6).flush t = true ∧ i ∈ ((cfg3.win 6).blk t).view.set := by
  obtain ⟨t, ht⟩ := RowBlocks.exists_mem_rect win3_6 (0 : Fin 2) 5000 (by decide +kernel) (by decide) (fun _ _ => rfl) (by decide) i
  exact ⟨t, flush3_6 t, by show i ∈ ((View.whole main_v23_0).slice (win3_6.rect t)).set; rw [View.set_slice_whole]; exact ht⟩

theorem read7_apply (t : Fin cfg3.N) (g : Fin 64 → EReal) (u : Fin 1) (q : Fin 64) :
    (((cfg3.win 7).blk t).view.read (Elt Ideal) (ofRow g) : Vec Ideal S1x64 .f32) (ix2 u q) = g q :=
  congrArg g (Fin.ext (win3_7.rect_emb_val_of_index_zero t 1 (idx_whole t 1).2.2.2.2.1 (ix2 u q)))

theorem flushed7_eq (t : Fin cfg3.N) (hf : (cfg3.win 7).flush t = true) :
    (dat3 V c).flushed 7 t = ((cfg3.win 7).blk t).view.read (Elt Ideal) (ofRow (colsum (z2of3 V c))) := by
  have hN : cfg3.N = 20 := N_3
  have h19 : t.val = 19 := by have := (flush3_7 t).mp hf; have := t.isLt; omega
  show (cfg3.win 7).cut (grid3.coords t) ((dat3 V c).after 7 t) = _
  rw [after3_7]
  funext y
  obtain ⟨u, q, rfl⟩ : ∃ (u : Fin 1) (q : Fin 64), y = ix2 u q := ⟨y 0, y 1, eq_ix2 y⟩
  exact ((sum_at V c u q t.val t.isLt).trans (sum_ext0_last _ t.val h19)).trans (read7_apply t (colsum (z2of3 V c)) u q).symm

theorem cover7 (i : S1x64.Idx) : ∃ t : Fin cfg3.N, (cfg3.win 7).flush t = true ∧ i ∈ ((cfg3.win 7).blk t).view.set := by
  have hN : cfg3.N = 20 := N_3
  let t : Fin cfg3.N := ⟨19, by omega⟩
  refine ⟨t, (flush3_7 t).mpr rfl, ?_⟩
  show i ∈ ((View.whole main_v23_1).slice (win3_7.rect t)).set
  rw [View.set_slice_whole]
  exact View.mem_set_unit_zero (funext fun a => by rw [(idx_whole t a).2.2.2.2.1]; exact Nat.zero_mul _) _ i

theorem read8_apply (t : Fin cfg3.N) (g : Fin 64 → EReal) (u : Fin 1) (q : Fin 64) :
    (((cfg3.win 8).blk t).view.read (Elt Ideal) (ofRow g) : Vec Ideal S1x64 .f32) (ix2 u q) = g q :=
  congrArg g (Fin.ext (win3_8.rect_emb_val_of_index_zero t 1 (idx_whole t 1).2.2.2.2.2 (ix2 u q)))

theorem flushed8_eq (t : Fin cfg3.N) (hf : (cfg3.win 8).flush t = true) :
    (dat3 V c).flushed 8 t = ((cfg3.win 8).blk t).view.read (Elt Ideal) (ofRow (colsumsq (z2of3 V c))) := by
  have hN : cfg3.N = 20 := N_3
  have h19 : t.val = 19 := by have := (flush3_8 t).mp hf; have := t.isLt; omega
  show (cfg3.win 8).cut (grid3.coords t) ((dat3 V c).after 8 t) = _
  rw [after3_8]
  funext y
  obtain ⟨u, q, rfl⟩ : ∃ (u : Fin 1) (q : Fin 64), y = ix2 u q := ⟨y 0, y 1, eq_ix2 y⟩
  exact ((sumsq_at V c u q t.val t.isLt).trans (sum_ext0_last _ t.val h19)).trans (read8_apply t (colsumsq (z2of3 V c)) u q).symm

theorem cover8 (i : S1x64.Idx) : ∃ t : Fin cfg3.N, (cfg3.win 8).flush t = true ∧ i ∈ ((cfg3.win 8).blk t).view.set := by
  have hN : cfg3.N = 20 := N_3
  let t : Fin cfg3.N := ⟨19, by omega⟩
  refine ⟨t, (flush3_8 t).mpr rfl, ?_⟩
  show i ∈ ((View.whole main_v23_2).slice (win3_8.rect t)).set
  rw [View.set_slice_whole]
  exact View.mem_set_unit_zero (funext fun a => by rw [(idx_whole t a).2.2.2.2.2]; exact Nat.zero_mul _) _ i

end Region

end Mlp3

open Mlp3

theorem mlp3_z2 (V : (c : Dev nD) → (b : Ref sig .tc) → Buf (Elt Ideal) ((c : Thread nD τ).loc b)) (c : Dev nD) :
    (dat3 (F := Ideal) V c).arrAt 6 cfg3.N = ofMat (z2of3 V c) :=
  (dat3 (F := Ideal) V c).arrAt_eq_of_cover 6 (ofMat (z2of3 V c)) (fun t _ => flushed6_eq V c t) cover6

theorem mlp3_sum (V : (c : Dev nD) → (b : Ref sig .tc) → Buf (Elt Ideal) ((c : Thread nD τ).loc b)) (c : Dev nD) :
    (dat3 (F := Ideal) V c).arrAt 7 cfg3.N = ofRow (colsum (z2of3 V c)) :=
  (dat3 (F := Ideal) V c).arrAt_eq_of_cover 7 (ofRow (colsum (z2of3 V c))) (flushed7_eq V c) cover7

theorem mlp3_sumsq (V : (c : Dev nD) → (b : Ref sig .tc) → Buf (Elt Ideal) ((c : Thread nD τ).loc b)) (c : Dev nD) :
    (dat3 (F := Ideal) V c).arrAt 8 cfg3.N = ofRow (colsumsq (z2of3 V c)) :=
  (dat3 (F := Ideal) V c).arrAt_eq_of_cover 8 (ofRow (colsumsq (z2of3 V c))) (flushed8_eq V c) cover8

end Cert.KernelIdeal.Val
end
-- ==== Proof.KNorm4.lean ====
import proofs.«427245_j11416023073365_2_alg».proof.Proof.Gen.KernelIdeal.Frame
import proofs.«427245_j11416023073365_2_alg».proof.Proof.KRows

noncomputable section

namespace Cert.KernelIdeal.Val

open Cert.KernelIdeal Cert.KernelIdeal.Gen Gnn RowBlocks Idealize.ShloMosaic Idealize.ShloMosaic.ValueIdx Idealize.ShloMosaic.TcCoe

variable (V : (c : Dev nD) → (b : Ref sig .tc) → Buf (Elt Ideal) ((c : Thread nD τ).loc b)) (c : Dev nD)

theorem norm4_stored (var : Vec Ideal S1x64 .f32) (z : Vec Ideal S5000x64 .f32) (mean g b : Vec Ideal S1x64 .f32) (p : Fin 5000) (q : Fin 64) :
    k4_pay1 var z mean g b (ix2 p q)
      = max ((z (ix2 p q) - mean (ix2 0 q)) * Ideal.rsqrt (var (ix2 0 q) + epsBN) * g (ix2 0 q) + b (ix2 0 q)) 0 := by
  unfold k4_pay1
  simp only [shapeCast_self]
  rw [maximumf_apply, addf_apply, mulf_apply, mulf_apply, subf_apply, bcast_row, bcast_row, bcast_row, bcast_row]
  exact congrArg (max _) Ideal.ofBits_zero_f32

theorem norm4_index : ∀ t : Fin cfg4.N, win4_0.index t = win4_5.index t ∧ win4_5.index t (1 : Fin 2) = 0 ∧ win4_1.index t (1 : Fin 2) = 0
    ∧ win4_2.index t (1 : Fin 2) = 0 ∧ win4_3.index t (1 : Fin 2) = 0 ∧ win4_4.index t (1 : Fin 2) = 0 :=
  (by decide +kernel : ∀ t : Fin grid4.N, _)

/-- Point t writes back block t of the normalised, rectified array. -/
theorem norm4_written (t : Fin cfg4.N) : (dat4 (F := Ideal) V c).flushed 5 t = ((cfg4.win 5).blk t).view.read (Elt Ideal)
    (ofMat (bnRelu (toMat (V c main_v23_0)) (rowOf (V c main_v36)) (rowOf (V c main_v37)) (rowOf (V c main_v38)) (rowOf (V c main_v39)))) := by
  show (cfg4.win 5).cut (grid4.coords t) ((dat4 (F := Ideal) V c).after 5 t) = _
  rw [after4_5]
  unfold out4_5
  rw [View.canon_unit_zero zeros2]
  simp only [View.ld_unit_zero (S := S5000x64) zeros2, View.ld_unit_zero (S := S1x64) zeros2]
  funext j
  obtain ⟨p, q, rfl⟩ : ∃ (p : Fin 5000) (q : Fin 64), j = ix2 p q := ⟨j 0, j 1, eq_ix2 j⟩
  obtain ⟨e0, e51, e11, e21, e31, e41⟩ := norm4_index t
  have hq := (win4_5.rect_emb_val_of_index_zero t 1 e51 (ix2 p q)).symm
  exact (norm4_stored _ _ _ _ _ p q).trans (bnRelu_at_of (V c main_v23_0) (V c main_v36) (V c main_v37) (V c main_v38) (V c main_v39)
    (iblk4 V c 0 t) (iblk4 V c 1 t) (iblk4 V c 2 t) (iblk4 V c 3 t) (iblk4 V c 4 t) p q (((cfg4.win 5).blk t).view.emb (ix2 p q))
    (congrArg (V c main_v23_0 : S100000x64.Idx → EReal) (emb_eq e0 (win4_0.rect_emb_val t (ix2 p q)) (win4_5.rect_emb_val t (ix2 p q))))
    (row_at (V c main_v36 : S1x64.Idx → EReal) ((win4_1.rect_emb_val_of_index_zero t 1 e11 (ix2 0 q)).trans hq))
    (row_at (V c main_v37 : S1x64.Idx → EReal) ((win4_2.rect_emb_val_of_index_zero t 1 e21 (ix2 0 q)).trans hq))
    (row_at (V c main_v38 : S1x64.Idx → EReal) ((win4_3.rect_emb_val_of_index_zero t 1 e31 (ix2 0 q)).trans hq))
    (row_at (V c main_v39 : S1x64.Idx → EReal) ((win4_4.rect_emb_val_of_index_zero t 1 e41 (ix2 0 q)).trans hq)))

/-- The 20 blocks of 5000 rows tile the array, so it ends as the batch normalisation of the pre-activation array, rectified. -/
theorem norm4_value : (dat4 (F := Ideal) V c).arrAt 5 cfg4.N
    = ofMat (bnRelu (toMat (V c main_v23_0)) (rowOf (V c main_v36)) (rowOf (V c main_v37)) (rowOf (V c main_v38)) (rowOf (V c main_v39))) :=
  (dat4 (F := Ideal) V c).arrAt_eq_of_cover 5 _ (fun t _ => norm4_written V c t) fun i =>
    (exists_mem_rect win4_5 ⟨0, by decide⟩ 5000 (by decide +kernel) (by decide) (fun _ _ => rfl) (by decide) i).imp fun t h =>
      ⟨flush4_5 t, (congrArg (i ∈ ·) (View.set_slice_whole main_v40 (win4_5.rect t))).mpr h⟩

end Cert.KernelIdeal.Val

end
-- ==== Proof.KMsg5.lean ====
import proofs.«427245_j11416023073365_2_alg».proof.Proof.Gen.KernelIdeal.Frame
import proofs.«427245_j11416023073365_2_alg».proof.Proof.KRows

noncomputable section

namespace Cert.KernelIdeal.Val

open Cert.KernelIdeal Cert.KernelIdeal.Gen Gnn RowBlocks Idealize.ShloMosaic Idealize.ShloMosaic.ValueIdx Idealize.ShloMosaic.TcCoe

variable (V : (c : Dev nD) → (b : Ref sig .tc) → Buf (Elt Ideal) ((c : Thread nD τ).loc b)) (c : Dev nD)

theorem msg5_pay (x0 x1 : Vec Ideal S8000x64 .f32) (j : S8000x64.Idx) : k5_pay1 (F := Ideal) x0 x1 j = max (x0 j + x1 j) 0 := by
  unfold k5_pay1
  simp only [shapeCast_self]
  exact congrArg (max _) Ideal.ofBits_zero_f32

theorem msg5_index : ∀ t : Fin cfg5.N, win5_0.index t = win5_2.index t ∧ win5_1.index t = win5_2.index t :=
  (by decide +kernel : ∀ t : Fin grid5.N, _)

/-- Point t writes back block t of the rectified sum of the two whole arrays. -/
theorem msg5_flushed (t : Fin cfg5.N) : (dat5 (F := Ideal) V c).flushed 2 t
    = ((cfg5.win 2).blk t).view.read (Elt Ideal) (ofMat (addRelu (toMat (V c main_v41)) (toMat (V c main_v7)))) := by
  show (cfg5.win 2).cut (grid5.coords t) ((dat5 V c).after 2 t) = _
  rw [after5_2]
  unfold out5_2
  rw [View.canon_unit_zero zeros2]
  simp only [View.ld_unit_zero (S := S8000x64) zeros2]
  funext j
  obtain ⟨e0, e1⟩ := msg5_index t
  exact (msg5_pay _ _ _).trans (addRelu_at_of (V c main_v41) (V c main_v7) (((cfg5.win 2).blk t).view.emb j)
    (congrArg (V c main_v41 : S3200000x64.Idx → EReal) (emb_eq e0 (win5_0.rect_emb_val t j) (win5_2.rect_emb_val t j)))
    (congrArg (V c main_v7 : S3200000x64.Idx → EReal) (emb_eq e1 (win5_1.rect_emb_val t j) (win5_2.rect_emb_val t j))))

/-- The 400 blocks of 8000 rows tile the array, so it ends as the rectified sum of the gathered node rows and the edge rows. -/
theorem msg5_value : (dat5 (F := Ideal) V c).arrAt 2 cfg5.N = ofMat (addRelu (toMat (V c main_v41)) (toMat (V c main_v7))) :=
  (dat5 (F := Ideal) V c).arrAt_eq_of_cover 2 _ (fun t _ => msg5_flushed V c t) fun i =>
    (exists_mem_rect win5_2 ⟨0, by decide⟩ 8000 (by decide +kernel) (by decide) (fun _ _ => rfl) (by decide) i).imp fun t h =>
      ⟨flush5_2 t, (congrArg (i ∈ ·) (View.set_slice_whole main_v42 (win5_2.rect t))).mpr h⟩

end Cert.KernelIdeal.Val

end
-- ==== Proof.KMlp6.lean ====
import proofs.«427245_j11416023073365_2_alg».proof.Proof.KMlpMath

noncomputable section

namespace Cert.KernelIdeal.Val

open Cert.KernelIdeal Cert.KernelIdeal.Gen Gnn Idealize.ShloMosaic Idealize.ShloMosaic.ValueIdx Idealize.ShloMosaic.TcCoe
open Mlp
open RowBlocks (zeros2)

def z2of6 (V : (c : Dev nD) → (b : Ref sig .tc) → Buf (Elt Ideal) ((c : Thread nD τ).loc b)) (c : Dev nD) :
    Fin 100000 → Fin 64 → EReal :=
  mlp (madd (toMat (V c main_v40)) (toMat (V c main_v45))) (toMat (V c main_v47)) (rowOf (V c main_v54))
    (toMat (V c main_v51)) (rowOf (V c main_v55))

namespace Mlp6

section Pieces
open Idealize.ShloMosaic.Tactic
variable {F : FTy → Type} [FloatOps F] {c : Dev nD} {i : grid6.Coords}
  {a1 : Memref sig .tc .vmem S5000x64 .f32} {h1 : a1.IsWhole} {a2 : Memref sig .tc .vmem S5000x64 .f32} {h2 : a2.IsWhole}
  {a3 : Memref sig .tc .vmem S64x64 .f32} {h3 : a3.IsWhole} {a4 : Memref sig .tc .vmem S1x64 .f32} {h4 : a4.IsWhole}
  {a5 : Memref sig .tc .vmem S64x64 .f32} {h5 : a5.IsWhole} {a6 : Memref sig .tc .vmem S1x64 .f32} {h6 : a6.IsWhole}
  {a7 : Memref sig .tc .vmem S5000x64 .f32} {h7 : a7.IsWhole} {a8 : Memref sig .tc .vmem S1x64 .f32} {h8 : a8.IsWhole}
  {a9 : Memref sig .tc .vmem S1x64 .f32} {h9 : a9.IsWhole}
  {x0 x1 : Vec F S5000x64 .f32} {x2 : Vec F S64x64 .f32} {x3 : Vec F S1x64 .f32} {x4 : Vec F S64x64 .f32} {x5 : Vec F S1x64 .f32}

section
variable {hc : cond6_0 i}

theorem outs3_A :
    (out6_A_6 c i a1 h1 a2 h2 a3 h3 a4 h4 a5 h5 a6 h6 a7 h7 a8 h8 a9 h9 hc x0 x1 x2 x3 x4 x5,
      out6_A_7 c i a1 h1 a2 h2 a3 h3 a4 h4 a5 h5 a6 h6 a7 h7 a8 h8 a9 h9 hc x0 x1 x2 x3 x4 x5,
      out6_A_8 c i a1 h1 a2 h2 a3 h3 a4 h4 a5 h5 a6 h6 a7 h7 a8 h8 a9 h9 hc x0 x1 x2 x3 x4 x5)
    = (k6_pay4 x0 x1 x2 x3 x4 x5,
      k6_pay5 x0 x1 x2 x3 x4 x5 (k6_pay2 (F := F)),
      k6_pay1 (k6_pay4 x0 x1 x2 x3 x4 x5) (k6_pay3 (F := F))) := by
  unfold out6_A_6 out6_A_7 out6_A_8
  rw [View.read_writes_eq_canon _ _ _ (cover6_A_6 c i a1 h1 a2 h2 a3 h3 a4 h4 a5 h5 a6 h6 a7 h7 a8 h8 a9 h9 hc x0 x1 x2 x3 x4 x5),
    View.read_writes_eq_canon _ _ _ (cover6_A_7 c i a1 h1 a2 h2 a3 h3 a4 h4 a5 h5 a6 h6 a7 h7 a8 h8 a9 h9 hc x0 x1 x2 x3 x4 x5),
    View.read_writes_eq_canon _ _ _ (cover6_A_8 c i a1 h1 a2 h2 a3 h3 a4 h4 a5 h5 a6 h6 a7 h7 a8 h8 a9 h9 hc x0 x1 x2 x3 x4 x5)]
  unfold kernelRun6_A
  dsimp only
  sl_unfold_words
  simp only [View.canon_cons_unit_zero (S := S5000x64) zeros2, View.canon_cons_unit_zero (S := S1x64) zeros2,
    View.readCov_unit_zero (S := S1x64) _ zeros2, View.readAt_eq_ld,
    h1.read_unread, h2.read_unread, h3.read_unread, h4.read_unread, h5.read_unread, h6.read_unread,
    View.ld_unit_zero (S := S5000x64) zeros2, View.ld_unit_zero (S := S64x64) zeros2, View.ld_unit_zero (S := S1x64) zeros2]

end

section
variable {hc : ¬cond6_0 i} {xo7 xo8 : Vec F S1x64 .f32}

theorem outs3_B :
    (out6_B_6 c i a1 h1 a2 h2 a3 h3 a4 h4 a5 h5 a6 h6 a7 h7 a8 h8 a9 h9 hc x0 x1 x2 x3 x4 x5 xo7 xo8,
      out6_B_7 c i a1 h1 a2 h2 a3 h3 a4 h4 a5 h5 a6 h6 a7 h7 a8 h8 a9 h9 hc x0 x1 x2 x3 x4 x5 xo7 xo8,
      out6_B_8 c i a1 h1 a2 h2 a3 h3 a4 h4 a5 h5 a6 h6 a7 h7 a8 h8 a9 h9 hc x0 x1 x2 x3 x4 x5 xo7 xo8)
    = (k6_pay4 x0 x1 x2 x3 x4 x5,
      k6_pay5 x0 x1 x2 x3 x4 x5 xo7,
      k6_pay1 (k6_pay4 x0 x1 x2 x3 x4 x5) xo8) := by
  unfold out6_B_6 out6_B_7 out6_B_8
  rw [View.read_writes_eq_canon _ _ _ (cover6_B_6 c i a1 h1 a2 h2 a3 h3 a4 h4 a5 h5 a6 h6 a7 h7 a8 h8 a9 h9 hc x0 x1 x2 x3 x4 x5 xo7 xo8),
    View.read_writes_eq_canon _ _ _ (cover6_B_7 c i a1 h1 a2 h2 a3 h3 a4 h4 a5 h5 a6 h6 a7 h7 a8 h8 a9 h9 hc x0 x1 x2 x3 x4 x5 xo7 xo8),
    View.read_writes_eq_canon _ _ _ (cover6_B_8 c i a1 h1 a2 h2 a3 h3 a4 h4 a5 h5 a6 h6 a7 h7 a8 h8 a9 h9 hc x0 x1 x2 x3 x4 x5 xo7 xo8)]
  unfold kernelRun6_B
  dsimp only
  sl_unfold_words
  simp only [View.canon_cons_unit_zero (S := S5000x64) zeros2, View.canon_cons_unit_zero (S := S1x64) zeros2,
    View.readCov_unit_zero (S := S1x64) _ zeros2, View.readAt_eq_ld,
    h1.read_unread, h2.read_unread, h3.read_unread, h4.read_unread, h5.read_unread, h6.read_unread, h8.read_unread, h9.read_unread,
    View.ld_unit_zero (S := S5000x64) zeros2, View.ld_unit_zero (S := S64x64) zeros2, View.ld_unit_zero (S := S1x64) zeros2]

end

end Pieces

theorem idx_row : ∀ t : Fin cfg6.N, (win6_0.index t (0 : Fin 2) = t.val ∧ win6_0.index t (1 : Fin 2) = 0)
    ∧ (win6_1.index t (0 : Fin 2) = t.val ∧ win6_1.index t (1 : Fin 2) = 0)
    ∧ win6_6.index t (0 : Fin 2) = t.val ∧ win6_6.index t (1 : Fin 2) = 0 :=
  (by decide +kernel : ∀ t : Fin grid6.N, _)

theorem idx_whole : ∀ (t : Fin cfg6.N) (a : Fin 2), win6_2.index t a = 0 ∧ win6_3.index t a = 0 ∧ win6_4.index t a = 0
    ∧ win6_5.index t a = 0 ∧ win6_7.index t a = 0 ∧ win6_8.index t a = 0 :=
  (by decide +kernel : ∀ t : Fin grid6.N, _)

def rowAt (t : Fin cfg6.N) (p : Fin 5000) : Fin 100000 :=
  ⟨t.val * 5000 + p.val, by
    have h : t.val < 20 := lt_of_lt_of_eq t.isLt (show cfg6.N = 20 from N_6)
    have := p.isLt; omega⟩

section Region
variable (V : (c : Dev nD) → (b : Ref sig .tc) → Buf (Elt Ideal) ((c : Thread nD τ).loc b)) (c : Dev nD)

abbrev blk0 (t : Fin cfg6.N) : Vec Ideal S5000x64 .f32 := iblk6 V c 0 t
abbrev blk1 (t : Fin cfg6.N) : Vec Ideal S5000x64 .f32 := iblk6 V c 1 t
abbrev blk2 (t : Fin cfg6.N) : Vec Ideal S64x64 .f32 := iblk6 V c 2 t
abbrev blk3 (t : Fin cfg6.N) : Vec Ideal S1x64 .f32 := iblk6 V c 3 t
abbrev blk4 (t : Fin cfg6.N) : Vec Ideal S64x64 .f32 := iblk6 V c 4 t
abbrev blk5 (t : Fin cfg6.N) : Vec Ideal S1x64 .f32 := iblk6 V c 5 t

theorem blk0_apply (t : Fin cfg6.N) (p : Fin 5000) (q : Fin 64) :
    blk0 V c t (ix2 p q) = toMat (V c main_v40) (rowAt t p) q := by
  refine congrArg (V c main_v40) (Shape.idx_ext₂ ?_ ?_)
  · exact (win6_0.rect_emb_val t (ix2 p q) 0).trans (congrArg (· * 5000 + p.val) (idx_row t).1.1)
  · exact win6_0.rect_emb_val_of_index_zero t 1 (idx_row t).1.2 (ix2 p q)

theorem blk1_apply (t : Fin cfg6.N) (p : Fin 5000) (q : Fin 64) :
    blk1 V c t (ix2 p q) = toMat (V c main_v45) (rowAt t p) q := by
  refine congrArg (V c main_v45) (Shape.idx_ext₂ ?_ ?_)
  · exact (win6_1.rect_emb_val t (ix2 p q) 0).trans (congrArg (· * 5000 + p.val) (idx_row t).2.1.1)
  · exact win6_1.rect_emb_val_of_index_zero t 1 (idx_row t).2.1.2 (ix2 p q)

theorem blk2_eq (t : Fin cfg6.N) : toMat (blk2 V c t) = toMat (V c main_v47) :=
  funext fun k => funext fun q => congrArg (V c main_v47) (funext fun a =>
    Fin.ext (win6_2.rect_emb_val_of_index_zero t a (idx_whole t a).1 (ix2 k q)))

theorem blk3_eq (t : Fin cfg6.N) : rowOf (blk3 V c t) = rowOf (V c main_v54) :=
  funext fun q => congrArg (V c main_v54) (funext fun a =>
    Fin.ext (win6_3.rect_emb_val_of_index_zero t a (idx_whole t a).2.1 (ix2 0 q)))

theorem blk4_eq (t : Fin cfg6.N) : toMat (blk4 V c t) = toMat (V c main_v51) :=
  funext fun k => funext fun q => congrArg (V c main_v51) (funext fun a =>
    Fin.ext (win6_4.rect_emb_val_of_index_zero t a (idx_whole t a).2.2.1 (ix2 k q)))

theorem blk5_eq (t : Fin cfg6.N) : rowOf (blk5 V c t) = rowOf (V c main_v55) :=
  funext fun q => congrArg (V c main_v55) (funext fun a =>
    Fin.ext (win6_5.rect_emb_val_of_index_zero t a (idx_whole t a).2.2.2.1 (ix2 0 q)))

abbrev zb (t : Fin cfg6.N) : FVec Ideal S5000x64 .f32 :=
  k6_pay4 (blk0 V c t) (blk1 V c t) (blk2 V c t) (blk3 V c t) (blk4 V c t) (blk5 V c t)
abbrev sb (t : Fin cfg6.N) (acc : Vec Ideal S1x64 .f32) : FVec Ideal S1x64 .f32 :=
  k6_pay5 (blk0 V c t) (blk1 V c t) (blk2 V c t) (blk3 V c t) (blk4 V c t) (blk5 V c t) acc
abbrev prev (t : Fin cfg6.N) := outsAt6 V c (t.val - 1) (Nat.lt_of_le_of_lt (Nat.sub_le _ _) t.isLt)

/-- A row of the perceptron depends on that row of its argument only, so a block of it is the perceptron of the block. -/
theorem zb_apply (t : Fin cfg6.N) (p : Fin 5000) (q : Fin 64) :
    zb V c t (ix2 p q) = z2of6 V c (rowAt t p) q := by
  unfold z2of6
  rw [← blk2_eq V c t, ← blk3_eq V c t, ← blk4_eq V c t, ← blk5_eq V c t]
  exact pay4_row _ _ _ _ _ _ _ _ p (rowAt t p) q (blk0_apply V c t p) (blk1_apply V c t p)

theorem outs_A (t : Fin cfg6.N) (h0 : t.val % 20 = 0) :
    outsAt6 V c t.val t.isLt = (zb V c t, sb V c t (k6_pay2 (F := Ideal)), k6_pay1 (zb V c t) (k6_pay3 (F := Ideal))) :=
  (outsAt6_A V c t h0).trans outs3_A

theorem outs_B (t : Fin cfg6.N) (h0 : ¬t.val % 20 = 0) :
    outsAt6 V c t.val t.isLt = (zb V c t, sb V c t (prev V c t).2.1, k6_pay1 (zb V c t) (prev V c t).2.2) :=
  (outsAt6_B V c t h0).trans outs3_B

theorem out6_at (t : Fin cfg6.N) : (outsAt6 V c t.val t.isLt).1 = zb V c t := by
  by_cases h0 : t.val % 20 = 0
  · rw [outs_A V c t h0]
  · rw [outs_B V c t h0]

theorem sum_at (u : Fin 1) (q : Fin 64) : ∀ n (h : n < cfg6.N), ((outsAt6 V c n h).2.1 : Vec Ideal S1x64 .f32) (ix2 u q)
    = ∑ i ∈ Finset.range ((n + 1) * 5000), ext0 (fun r => z2of6 V c r q) i :=
  run_sum (N := cfg6.N) N_6 _ _
    (fun h => (congrArg (fun o => o.2.1 (ix2 u q)) (outs_A V c ⟨0, h⟩ rfl)).trans <| (pay5_apply _ _ _ _ _ _ _ u q).trans <|
      congrArg₂ (· + ·) (pay2_apply _) (Finset.sum_congr rfl fun p _ => zb_apply V c ⟨0, h⟩ p q))
    (fun n h => (congrArg (fun o => o.2.1 (ix2 u q))
        (outs_B V c ⟨n + 1, h⟩ (by have hN : cfg6.N = 20 := N_6; dsimp only; omega))).trans <|
      (pay5_apply _ _ _ _ _ _ _ u q).trans <| congrArg (_ + ·) (Finset.sum_congr rfl fun p _ => zb_apply V c ⟨n + 1, h⟩ p q))

theorem sumsq_at (u : Fin 1) (q : Fin 64) : ∀ n (h : n < cfg6.N), ((outsAt6 V c n h).2.2 : Vec Ideal S1x64 .f32) (ix2 u q)
    = ∑ i ∈ Finset.range ((n + 1) * 5000), ext0 (fun r => z2of6 V c r q * z2of6 V c r q) i :=
  run_sum (N := cfg6.N) N_6 _ _
    (fun h => (congrArg (fun o => o.2.2 (ix2 u q)) (outs_A V c ⟨0, h⟩ rfl)).trans <| (pay1_apply _ _ u q).trans <|
      congrArg₂ (· + ·) (pay3_apply _)
        (Finset.sum_congr rfl fun p _ => congrArg₂ (· * ·) (zb_apply V c ⟨0, h⟩ p q) (zb_apply V c ⟨0, h⟩ p q)))
    (fun n h => (congrArg (fun o => o.2.2 (ix2 u q))
        (outs_B V c ⟨n + 1, h⟩ (by have hN : cfg6.N = 20 := N_6; dsimp only; omega))).trans <|
      (pay1_apply _ _ u q).trans <| congrArg (_ + ·)
        (Finset.sum_congr rfl fun p _ => congrArg₂ (· * ·) (zb_apply V c ⟨n + 1, h⟩ p q) (zb_apply V c ⟨n + 1, h⟩ p q)))

theorem read6_apply (t : Fin cfg6.N) (G : Fin 100000 → Fin 64 → EReal) (p : Fin 5000) (q : Fin 64) :
    (((cfg6.win 6).blk t).view.read (Elt Ideal) (ofMat G) : Vec Ideal S5000x64 .f32) (ix2 p q) = G (rowAt t p) q :=
  congrArg₂ G (Fin.ext ((win6_6.rect_emb_val t (ix2 p q) 0).trans (congrArg (· * 5000 + p.val) (idx_row t).2.2.1)))
    (Fin.ext (win6_6.rect_emb_val_of_index_zero t 1 (idx_row t).2.2.2 (ix2 p q)))

theorem flushed6_eq (t : Fin cfg6.N) :
    (dat6 V c).flushed 6 t = ((cfg6.win 6).blk t).view.read (Elt Ideal) (ofMat (z2of6 V c)) := by
  show (cfg6.win 6).cut (grid6.coords t) ((dat6 V c).after 6 t) = _
  rw [after6_6, out6_at]
  funext y
  obtain ⟨p, q, rfl⟩ : ∃ (p : Fin 5000) (q : Fin 64), y = ix2 p q := ⟨y 0, y 1, eq_ix2 y⟩
  exact (zb_apply V c t p q).trans (read6_apply t (z2of6 V c) p q).symm

theorem cover6 (i : S100000x64.Idx) : ∃ t : Fin cfg6.N, (cfg6.win 6).flush t = true ∧ i ∈ ((cfg6.win 6).blk t).view.set := by
  obtain ⟨t, ht⟩ := RowBlocks.exists_mem_rect win6_6 (0 : Fin 2) 5000 (by decide +kernel) (by decide) (fun _ _ => rfl) (by decide) i
  exact ⟨t, flush6_6 t, by show i ∈ ((View.whole main_v56_0).slice (win6_6.rect t)).set; rw [View.set_slice_whole]; exact ht⟩

theorem read7_apply (t : Fin cfg6.N) (g : Fin 64 → EReal) (u : Fin 1) (q : Fin 64) :
    (((cfg6.win 7).blk t).view.read (Elt Ideal) (ofRow g) : Vec Ideal S1x64 .f32) (ix2 u q) = g q :=
  congrArg g (Fin.ext (win6_7.rect_emb_val_of_index_zero t 1 (idx_whole t 1).2.2.2.2.1 (ix2 u q)))

theorem flushed7_eq (t : Fin cfg6.N) (hf : (cfg6.win 7).flush t = true) :
    (dat6 V c).flushed 7 t = ((cfg6.win 7).blk t).view.read (Elt Ideal) (ofRow (colsum (z2of6 V c))) := by
  have hN : cfg6.N = 20 := N_6
  have h19 : t.val = 19 := by have := (flush6_7 t).mp hf; have := t.isLt; omega
  show (cfg6.win 7).cut (grid6.coords t) ((dat6 V c).after 7 t) = _
  rw [after6_7]
  funext y
  obtain ⟨u, q, rfl⟩ : ∃ (u : Fin 1) (q : Fin 64), y = ix2 u q := ⟨y 0, y 1, eq_ix2 y⟩
  exact ((sum_at V c u q t.val t.isLt).trans (sum_ext0_last _ t.val h19)).trans (read7_apply t (colsum (z2of6 V c)) u q).symm

theorem cover7 (i : S1x64.Idx) : ∃ t : Fin cfg6.N, (cfg6.win 7).flush t = true ∧ i ∈ ((cfg6.win 7).blk t).view.set := by
  have hN : cfg6.N = 20 := N_6
  let t : Fin cfg6.N := ⟨19, by omega⟩
  refine ⟨t, (flush6_7 t).mpr rfl, ?_⟩
  show i ∈ ((View.whole main_v56_1).slice (win6_7.rect t)).set
  rw [View.set_slice_whole]
  exact View.mem_set_unit_zero (funext fun a => by rw [(idx_whole t a).2.2.2.2.1]; exact Nat.zero_mul _) _ i

theorem read8_apply (t : Fin cfg6.N) (g : Fin 64 → EReal) (u : Fin 1) (q : Fin 64) :
    (((cfg6.win 8).blk t).view.read (Elt Ideal) (ofRow g) : Vec Ideal S1x64 .f32) (ix2 u q) = g q :=
  congrArg g (Fin.ext (win6_8.rect_emb_val_of_index_zero t 1 (idx_whole t 1).2.2.2.2.2 (ix2 u q)))

theorem flushed8_eq (t : Fin cfg6.N) (hf : (cfg6.win 8).flush t = true) :
    (dat6 V c).flushed 8 t = ((cfg6.win 8).blk t).view.read (Elt Ideal) (ofRow (colsumsq (z2of6 V c))) := by
  have hN : cfg6.N = 20 := N_6
  have h19 : t.val = 19 := by have := (flush6_8 t).mp hf; have := t.isLt; omega
  show (cfg6.win 8).cut (grid6.coords t) ((dat6 V c).after 8 t) = _
  rw [after6_8]
  funext y
  obtain ⟨u, q, rfl⟩ : ∃ (u : Fin 1) (q : Fin 64), y = ix2 u q := ⟨y 0, y 1, eq_ix2 y⟩
  exact ((sumsq_at V c u q t.val t.isLt).trans (sum_ext0_last _ t.val h19)).trans (read8_apply t (colsumsq (z2of6 V c)) u q).symm

theorem cover8 (i : S1x64.Idx) : ∃ t : Fin cfg6.N, (cfg6.win 8).flush t = true ∧ i ∈ ((cfg6.win 8).blk t).view.set := by
  have hN : cfg6.N = 20 := N_6
  let t : Fin cfg6.N := ⟨19, by omega⟩
  refine ⟨t, (flush6_8 t).mpr rfl, ?_⟩
  show i ∈ ((View.whole main_v56_2).slice (win6_8.rect t)).set
  rw [View.set_slice_whole]
  exact View.mem_set_unit_zero (funext fun a => by rw [(idx_whole t a).2.2.2.2.2]; exact Nat.zero_mul _) _ i

end Region

end Mlp6

open Mlp6

theorem mlp6_z2 (V : (c : Dev nD) → (b : Ref sig .tc) → Buf (Elt Ideal) ((c : Thread nD τ).loc b)) (c : Dev nD) :
    (dat6 (F := Ideal) V c).arrAt 6 cfg6.N = ofMat (z2of6 V c) :=
  (dat6 (F := Ideal) V c).arrAt_eq_of_cover 6 (ofMat (z2of6 V c)) (fun t _ => flushed6_eq V c t) cover6

theorem mlp6_sum (V : (c : Dev nD) → (b : Ref sig .tc) → Buf (Elt Ideal) ((c : Thread nD τ).loc b)) (c : Dev nD) :
    (dat6 (F := Ideal) V c).arrAt 7 cfg6.N = ofRow (colsum (z2of6 V c)) :=
  (dat6 (F := Ideal) V c).arrAt_eq_of_cover 7 (ofRow (colsum (z2of6 V c))) (flushed7_eq V c) cover7

theorem mlp6_sumsq (V : (c : Dev nD) → (b : Ref sig .tc) → Buf (Elt Ideal) ((c : Thread nD τ).loc b)) (c : Dev nD) :
    (dat6 (F := Ideal) V c).arrAt 8 cfg6.N = ofRow (colsumsq (z2of6 V c)) :=
  (dat6 (F := Ideal) V c).arrAt_eq_of_cover 8 (ofRow (colsumsq (z2of6 V c))) (flushed8_eq V c) cover8

end Cert.KernelIdeal.Val
end
-- ==== Proof.KNorm7.lean ====
import proofs.«427245_j11416023073365_2_alg».proof.Proof.Gen.KernelIdeal.Frame
import proofs.«427245_j11416023073365_2_alg».proof.Proof.KRows

noncomputable section

namespace Cert.KernelIdeal.Val

open Cert.KernelIdeal Cert.KernelIdeal.Gen Gnn RowBlocks Idealize.ShloMosaic Idealize.ShloMosaic.ValueIdx Idealize.ShloMosaic.TcCoe

variable (V : (c : Dev nD) → (b : Ref sig .tc) → Buf (Elt Ideal) ((c : Thread nD τ).loc b)) (c : Dev nD)

theorem norm7_stored (var : Vec Ideal S1x64 .f32) (z : Vec Ideal S5000x64 .f32) (mean g b : Vec Ideal S1x64 .f32) (p : Fin 5000) (q : Fin 64) :
    k7_pay1 var z mean g b (ix2 p q)
      = max ((z (ix2 p q) - mean (ix2 0 q)) * Ideal.rsqrt (var (ix2 0 q) + epsBN) * g (ix2 0 q) + b (ix2 0 q)) 0 := by
  unfold k7_pay1
  simp only [shapeCast_self]
  rw [maximumf_apply, addf_apply, mulf_apply, mulf_apply, subf_apply, bcast_row, bcast_row, bcast_row, bcast_row]
  exact congrArg (max _) Ideal.ofBits_zero_f32

theorem norm7_index : ∀ t : Fin cfg7.N, win7_0.index t = win7_5.index t ∧ win7_5.index t (1 : Fin 2) = 0 ∧ win7_1.index t (1 : Fin 2) = 0
    ∧ win7_2.index t (1 : Fin 2) = 0 ∧ win7_3.index t (1 : Fin 2) = 0 ∧ win7_4.index t (1 : Fin 2) = 0 :=
  (by decide +kernel : ∀ t : Fin grid7.N, _)

/-- Point t writes back block t of the normalised, rectified array. -/
theorem norm7_written (t : Fin cfg7.N) : (dat7 (F := Ideal) V c).flushed 5 t = ((cfg7.win 5).blk t).view.read (Elt Ideal)
    (ofMat (bnRelu (toMat (V c main_v56_0)) (rowOf (V c main_v69)) (rowOf (V c main_v70)) (rowOf (V c main_v71)) (rowOf (V c main_v72)))) := by
  show (cfg7.win 5).cut (grid7.coords t) ((dat7 (F := Ideal) V c).after 5 t) = _
  rw [after7_5]
  unfold out7_5
  rw [View.canon_unit_zero zeros2]
  simp only [View.ld_unit_zero (S := S5000x64) zeros2, View.ld_unit_zero (S := S1x64) zeros2]
  funext j
  obtain ⟨p, q, rfl⟩ : ∃ (p : Fin 5000) (q : Fin 64), j = ix2 p q := ⟨j 0, j 1, eq_ix2 j⟩
  obtain ⟨e0, e51, e11, e21, e31, e41⟩ := norm7_index t
  have hq := (win7_5.rect_emb_val_of_index_zero t 1 e51 (ix2 p q)).symm
  exact (norm7_stored _ _ _ _ _ p q).trans (bnRelu_at_of (V c main_v56_0) (V c main_v69) (V c main_v70) (V c main_v71) (V c main_v72)
    (iblk7 V c 0 t) (iblk7 V c 1 t) (iblk7 V c 2 t) (iblk7 V c 3 t) (iblk7 V c 4 t) p q (((cfg7.win 5).blk t).view.emb (ix2 p q))
    (congrArg (V c main_v56_0 : S100000x64.Idx → EReal) (emb_eq e0 (win7_0.rect_emb_val t (ix2 p q)) (win7_5.rect_emb_val t (ix2 p q))))
    (row_at (V c main_v69 : S1x64.Idx → EReal) ((win7_1.rect_emb_val_of_index_zero t 1 e11 (ix2 0 q)).trans hq))
    (row_at (V c main_v70 : S1x64.Idx → EReal) ((win7_2.rect_emb_val_of_index_zero t 1 e21 (ix2 0 q)).trans hq))
    (row_at (V c main_v71 : S1x64.Idx → EReal) ((win7_3.rect_emb_val_of_index_zero t 1 e31 (ix2 0 q)).trans hq))
    (row_at (V c main_v72 : S1x64.Idx → EReal) ((win7_4.rect_emb_val_of_index_zero t 1 e41 (ix2 0 q)).trans hq)))

/-- The 20 blocks of 5000 rows tile the array, so it ends as the batch normalisation of the pre-activation array, rectified. -/
theorem norm7_value : (dat7 (F := Ideal) V c).arrAt 5 cfg7.N
    = ofMat (bnRelu (toMat (V c main_v56_0)) (rowOf (V c main_v69)) (rowOf (V c main_v70)) (rowOf (V c main_v71)) (rowOf (V c main_v72))) :=
  (dat7 (F := Ideal) V c).arrAt_eq_of_cover 5 _ (fun t _ => norm7_written V c t) fun i =>
    (exists_mem_rect win7_5 ⟨0, by decide⟩ 5000 (by decide +kernel) (by decide) (fun _ _ => rfl) (by decide) i).imp fun t h =>
      ⟨flush7_5 t, (congrArg (i ∈ ·) (View.set_slice_whole main_v73 (win7_5.rect t))).mpr h⟩

end Cert.KernelIdeal.Val

end
-- ==== Proof.KMsg8.lean ====
import proofs.«427245_j11416023073365_2_alg».proof.Proof.Gen.KernelIdeal.Frame
import proofs.«427245_j11416023073365_2_alg».proof.Proof.KRows

noncomputable section

namespace Cert.KernelIdeal.Val

open Cert.KernelIdeal Cert.KernelIdeal.Gen Gnn RowBlocks Idealize.ShloMosaic Idealize.ShloMosaic.ValueIdx Idealize.ShloMosaic.TcCoe

variable (V : (c : Dev nD) → (b : Ref sig .tc) → Buf (Elt Ideal) ((c : Thread nD τ).loc b)) (c : Dev nD)

theorem msg8_pay (x0 x1 : Vec Ideal S8000x64 .f32) (j : S8000x64.Idx) : k8_pay1 (F := Ideal) x0 x1 j = max (x0 j + x1 j) 0 := by
  unfold k8_pay1
  simp only [shapeCast_self]
  exact congrArg (max _) Ideal.ofBits_zero_f32

theorem msg8_index : ∀ t : Fin cfg8.N, win8_0.index t = win8_2.index t ∧ win8_1.index t = win8_2.index t :=
  (by decide +kernel : ∀ t : Fin grid8.N, _)

/-- Point t writes back block t of the rectified sum of the two whole arrays. -/
theorem msg8_flushed (t : Fin cfg8.N) : (dat8 (F := Ideal) V c).flushed 2 t
    = ((cfg8.win 2).blk t).view.read (Elt Ideal) (ofMat (addRelu (toMat (V c main_v74)) (toMat (V c main_v7)))) := by
  show (cfg8.win 2).cut (grid8.coords t) ((dat8 V c).after 2 t) = _
  rw [after8_2]
  unfold out8_2
  rw [View.canon_unit_zero zeros2]
  simp only [View.ld_unit_zero (S := S8000x64) zeros2]
  funext j
  obtain ⟨e0, e1⟩ := msg8_index t
  exact (msg8_pay _ _ _).trans (addRelu_at_of (V c main_v74) (V c main_v7) (((cfg8.win 2).blk t).view.emb j)
    (congrArg (V c main_v74 : S3200000x64.Idx → EReal) (emb_eq e0 (win8_0.rect_emb_val t j) (win8_2.rect_emb_val t j)))
    (congrArg (V c main_v7 : S3200000x64.Idx → EReal) (emb_eq e1 (win8_1.rect_emb_val t j) (win8_2.rect_emb_val t j))))

/-- The 400 blocks of 8000 rows tile the array, so it ends as the rectified sum of the gathered node rows and the edge rows. -/
theorem msg8_value : (dat8 (F := Ideal) V c).arrAt 2 cfg8.N = ofMat (addRelu (toMat (V c main_v74)) (toMat (V c main_v7))) :=
  (dat8 (F := Ideal) V c).arrAt_eq_of_cover 2 _ (fun t _ => msg8_flushed V c t) fun i =>
    (exists_mem_rect win8_2 ⟨0, by decide⟩ 8000 (by decide +kernel) (by decide) (fun _ _ => rfl) (by decide) i).imp fun t h =>
      ⟨flush8_2 t, (congrArg (i ∈ ·) (View.set_slice_whole main_v75 (win8_2.rect t))).mpr h⟩

end Cert.KernelIdeal.Val

end
-- ==== Proof.KMlp9.lean ====
import proofs.«427245_j11416023073365_2_alg».proof.Proof.KMlpMath

noncomputable section

namespace Cert.KernelIdeal.Val

open Cert.KernelIdeal Cert.KernelIdeal.Gen Gnn Idealize.ShloMosaic Idealize.ShloMosaic.ValueIdx Idealize.ShloMosaic.TcCoe
open Mlp
open RowBlocks (zeros2)

def z2of9 (V : (c : Dev nD) → (b : Ref sig .tc) → Buf (Elt Ideal) ((c : Thread nD τ).loc b)) (c : Dev nD) :
    Fin 100000 → Fin 64 → EReal :=
  mlp (madd (toMat (V c main_v73)) (toMat (V c main_v78))) (toMat (V c main_v80)) (rowOf (V c main_v87))
    (toMat (V c main_v84)) (rowOf (V c main_v88))

namespace Mlp9

section Pieces
open Idealize.ShloMosaic.Tactic
variable {F : FTy → Type} [FloatOps F] {c : Dev nD} {i : grid9.Coords}
  {a1 : Memref sig .tc .vmem S5000x64 .f32} {h1 : a1.IsWhole} {a2 : Memref sig .tc .vmem S5000x64 .f32} {h2 : a2.IsWhole}
  {a3 : Memref sig .tc .vmem S64x64 .f32} {h3 : a3.IsWhole} {a4 : Memref sig .tc .vmem S1x64 .f32} {h4 : a4.IsWhole}
  {a5 : Memref sig .tc .vmem S64x64 .f32} {h5 : a5.IsWhole} {a6 : Memref sig .tc .vmem S1x64 .f32} {h6 : a6.IsWhole}
  {a7 : Memref sig .tc .vmem S5000x64 .f32} {h7 : a7.IsWhole} {a8 : Memref sig .tc .vmem S1x64 .f32} {h8 : a8.IsWhole}
  {a9 : Memref sig .tc .vmem S1x64 .f32} {h9 : a9.IsWhole}
  {x0 x1 : Vec F S5000x64 .f32} {x2 : Vec F S64x64 .f32} {x3 : Vec F S1x64 .f32} {x4 : Vec F S64x64 .f32} {x5 : Vec F S1x64 .f32}

section
variable {hc : cond9_0 i}

theorem outs3_A :
    (out9_A_6 c i a1 h1 a2 h2 a3 h3 a4 h4 a5 h5 a6 h6 a7 h7 a8 h8 a9 h9 hc x0 x1 x2 x3 x4 x5,
      out9_A_7 c i a1 h1 a2 h2 a3 h3 a4 h4 a5 h5 a6 h6 a7 h7 a8 h8 a9 h9 hc x0 x1 x2 x3 x4 x5,
      out9_A_8 c i a1 h1 a2 h2 a3 h3 a4 h4 a5 h5 a6 h6 a7 h7 a8 h8 a9 h9 hc x0 x1 x2 x3 x4 x5)
    = (k9_pay4 x0 x1 x2 x3 x4 x5,
      k9_pay5 x0 x1 x2 x3 x4 x5 (k9_pay2 (F := F)),
      k9_pay1 (k9_pay4 x0 x1 x2 x3 x4 x5) (k9_pay3 (F := F))) := by
  unfold out9_A_6 out9_A_7 out9_A_8
  rw [View.read_writes_eq_canon _ _ _ (cover9_A_6 c i a1 h1 a2 h2 a3 h3 a4 h4 a5 h5 a6 h6 a7 h7 a8 h8 a9 h9 hc x0 x1 x2 x3 x4 x5),
    View.read_writes_eq_canon _ _ _ (cover9_A_7 c i a1 h1 a2 h2 a3 h3 a4 h4 a5 h5 a6 h6 a7 h7 a8 h8 a9 h9 hc x0 x1 x2 x3 x4 x5),
    View.read_writes_eq_canon _ _ _ (cover9_A_8 c i a1 h1 a2 h2 a3 h3 a4 h4 a5 h5 a6 h6 a7 h7 a8 h8 a9 h9 hc x0 x1 x2 x3 x4 x5)]
  unfold kernelRun9_A
  dsimp only
  sl_unfold_words
  simp only [View.canon_cons_unit_zero (S := S5000x64) zeros2, View.canon_cons_unit_zero (S := S1x64) zeros2,
    View.readCov_unit_zero (S := S1x64) _ zeros2, View.readAt_eq_ld,
    h1.read_unread, h2.read_unread, h3.read_unread, h4.read_unread, h5.read_unread, h6.read_unread,
    View.ld_unit_zero (S := S5000x64) zeros2, View.ld_unit_zero (S := S64x64) zeros2, View.ld_unit_zero (S := S1x64) zeros2]

end

section
variable {hc : ¬cond9_0 i} {xo7 xo8 : Vec F S1x64 .f32}

theorem outs3_B :
    (out9_B_6 c i a1 h1 a2 h2 a3 h3 a4 h4 a5 h5 a6 h6 a7 h7 a8 h8 a9 h9 hc x0 x1 x2 x3 x4 x5 xo7 xo8,
      out9_B_7 c i a1 h1 a2 h2 a3 h3 a4 h4 a5 h5 a6 h6 a7 h7 a8 h8 a9 h9 hc x0 x1 x2 x3 x4 x5 xo7 xo8,
      out9_B_8 c i a1 h1 a2 h2 a3 h3 a4 h4 a5 h5 a6 h6 a7 h7 a8 h8 a9 h9 hc x0 x1 x2 x3 x4 x5 xo7 xo8)
    = (k9_pay4 x0 x1 x2 x3 x4 x5,
      k9_pay5 x0 x1 x2 x3 x4 x5 xo7,
      k9_pay1 (k9_pay4 x0 x1 x2 x3 x4 x5) xo8) := by
  unfold out9_B_6 out9_B_7 out9_B_8
  rw [View.read_writes_eq_canon _ _ _ (cover9_B_6 c i a1 h1 a2 h2 a3 h3 a4 h4 a5 h5 a6 h6 a7 h7 a8 h8 a9 h9 hc x0 x1 x2 x3 x4 x5 xo7 xo8),
    View.read_writes_eq_canon _ _ _ (cover9_B_7 c i a1 h1 a2 h2 a3 h3 a4 h4 a5 h5 a6 h6 a7 h7 a8 h8 a9 h9 hc x0 x1 x2 x3 x4 x5 xo7 xo8),
    View.read_writes_eq_canon _ _ _ (cover9_B_8 c i a1 h1 a2 h2 a3 h3 a4 h4 a5 h5 a6 h6 a7 h7 a8 h8 a9 h9 hc x0 x1 x2 x3 x4 x5 xo7 xo8)]
  unfold kernelRun9_B
  dsimp only
  sl_unfold_words
  simp only [View.canon_cons_unit_zero (S := S5000x64) zeros2, View.canon_cons_unit_zero (S := S1x64) zeros2,
    View.readCov_unit_zero (S := S1x64) _ zeros2, View.readAt_eq_ld,
    h1.read_unread, h2.read_unread, h3.read_unread, h4.read_unread, h5.read_unread, h6.read_unread, h8.read_unread, h9.read_unread,
    View.ld_unit_zero (S := S5000x64) zeros2, View.ld_unit_zero (S := S64x64) zeros2, View.ld_unit_zero (S := S1x64) zeros2]

end

end Pieces

theorem idx_row : ∀ t : Fin cfg9.N, (win9_0.index t (0 : Fin 2) = t.val ∧ win9_0.index t (1 : Fin 2) = 0)
    ∧ (win9_1.index t (0 : Fin 2) = t.val ∧ win9_1.index t (1 : Fin 2) = 0)
    ∧ win9_6.index t (0 : Fin 2) = t.val ∧ win9_6.index t (1 : Fin 2) = 0 :=
  (by decide +kernel : ∀ t : Fin grid9.N, _)

theorem idx_whole : ∀ (t : Fin cfg9.N) (a : Fin 2), win9_2.index t a = 0 ∧ win9_3.index t a = 0 ∧ win9_4.index t a = 0
    ∧ win9_5.index t a = 0 ∧ win9_7.index t a = 0 ∧ win9_8.index t a = 0 :=
  (by decide +kernel : ∀ t : Fin grid9.N, _)

def rowAt (t : Fin cfg9.N) (p : Fin 5000) : Fin 100000 :=
  ⟨t.val * 5000 + p.val, by
    have h : t.val < 20 := lt_of_lt_of_eq t.isLt (show cfg9.N = 20 from N_9)
    have := p.isLt; omega⟩

section Region
variable (V : (c : Dev nD) → (b : Ref sig .tc) → Buf (Elt Ideal) ((c : Thread nD τ).loc b)) (c : Dev nD)

abbrev blk0 (t : Fin cfg9.N) : Vec Ideal S5000x64 .f32 := iblk9 V c 0 t
abbrev blk1 (t : Fin cfg9.N) : Vec Ideal S5000x64 .f32 := iblk9 V c 1 t
abbrev blk2 (t : Fin cfg9.N) : Vec Ideal S64x64 .f32 := iblk9 V c 2 t
abbrev blk3 (t : Fin cfg9.N) : Vec Ideal S1x64 .f32 := iblk9 V c 3 t
abbrev blk4 (t : Fin cfg9.N) : Vec Ideal S64x64 .f32 := iblk9 V c 4 t
abbrev blk5 (t : Fin cfg9.N) : Vec Ideal S1x64 .f32 := iblk9 V c 5 t

theorem blk0_apply (t : Fin cfg9.N) (p : Fin 5000) (q : Fin 64) :
    blk0 V c t (ix2 p q) = toMat (V c main_v73) (rowAt t p) q := by
  refine congrArg (V c main_v73) (Shape.idx_ext₂ ?_ ?_)
  · exact (win9_0.rect_emb_val t (ix2 p q) 0).trans (congrArg (· * 5000 + p.val) (idx_row t).1.1)
  · exact win9_0.rect_emb_val_of_index_zero t 1 (idx_row t).1.2 (ix2 p q)

theorem blk1_apply (t : Fin cfg9.N) (p : Fin 5000) (q : Fin 64) :
    blk1 V c t (ix2 p q) = toMat (V c main_v78) (rowAt t p) q := by
  refine congrArg (V c main_v78) (Shape.idx_ext₂ ?_ ?_)
  · exact (win9_1.rect_emb_val t (ix2 p q) 0).trans (congrArg (· * 5000 + p.val) (idx_row t).2.1.1)
  · exact win9_1.rect_emb_val_of_index_zero t 1 (idx_row t).2.1.2 (ix2 p q)

theorem blk2_eq (t : Fin cfg9.N) : toMat (blk2 V c t) = toMat (V c main_v80) :=
  funext fun k => funext fun q => congrArg (V c main_v80) (funext fun a =>
    Fin.ext (win9_2.rect_emb_val_of_index_zero t a (idx_whole t a).1 (ix2 k q)))

theorem blk3_eq (t : Fin cfg9.N) : rowOf (blk3 V c t) = rowOf (V c main_v87) :=
  funext fun q => congrArg (V c main_v87) (funext fun a =>
    Fin.ext (win9_3.rect_emb_val_of_index_zero t a (idx_whole t a).2.1 (ix2 0 q)))

theorem blk4_eq (t : Fin cfg9.N) : toMat (blk4 V c t) = toMat (V c main_v84) :=
  funext fun k => funext fun q => congrArg (V c main_v84) (funext fun a =>
    Fin.ext (win9_4.rect_emb_val_of_index_zero t a (idx_whole t a).2.2.1 (ix2 k q)))

theorem blk5_eq (t : Fin cfg9.N) : rowOf (blk5 V c t) = rowOf (V c main_v88) :=
  funext fun q => congrArg (V c main_v88) (funext fun a =>
    Fin.ext (win9_5.rect_emb_val_of_index_zero t a (idx_whole t a).2.2.2.1 (ix2 0 q)))

abbrev zb (t : Fin cfg9.N) : FVec Ideal S5000x64 .f32 :=
  k9_pay4 (blk0 V c t) (blk1 V c t) (blk2 V c t) (blk3 V c t) (blk4 V c t) (blk5 V c t)
abbrev sb (t : Fin cfg9.N) (acc : Vec Ideal S1x64 .f32) : FVec Ideal S1x64 .f32 :=
  k9_pay5 (blk0 V c t) (blk1 V c t) (blk2 V c t) (blk3 V c t) (blk4 V c t) (blk5 V c t) acc
abbrev prev (t : Fin cfg9.N) := outsAt9 V c (t.val - 1) (Nat.lt_of_le_of_lt (Nat.sub_le _ _) t.isLt)

/-- A row of the perceptron depends on that row of its argument only, so a block of it is the perceptron of the block. -/
theorem zb_apply (t : Fin cfg9.N) (p : Fin 5000) (q : Fin 64) :
    zb V c t (ix2 p q) = z2of9 V c (rowAt t p) q := by
  unfold z2of9
  rw [← blk2_eq V c t, ← blk3_eq V c t, ← blk4_eq V c t, ← blk5_eq V c t]
  exact pay4_row _ _ _ _ _ _ _ _ p (rowAt t p) q (blk0_apply V c t p) (blk1_apply V c t p)

theorem outs_A (t : Fin cfg9.N) (h0 : t.val % 20 = 0) :
    outsAt9 V c t.val t.isLt = (zb V c t, sb V c t (k9_pay2 (F := Ideal)), k9_pay1 (zb V c t) (k9_pay3 (F := Ideal))) :=
  (outsAt9_A V c t h0).trans outs3_A

theorem outs_B (t : Fin cfg9.N) (h0 : ¬t.val % 20 = 0) :
    outsAt9 V c t.val t.isLt = (zb V c t, sb V c t (prev V c t).2.1, k9_pay1 (zb V c t) (prev V c t).2.2) :=
  (outsAt9_B V c t h0).trans outs3_B

theorem out6_at (t : Fin cfg9.N) : (outsAt9 V c t.val t.isLt).1 = zb V c t := by
  by_cases h0 : t.val % 20 = 0
  · rw [outs_A V c t h0]
  · rw [outs_B V c t h0]

theorem sum_at (u : Fin 1) (q : Fin 64) : ∀ n (h : n < cfg9.N), ((outsAt9 V c n h).2.1 : Vec Ideal S1x64 .f32) (ix2 u q)
    = ∑ i ∈ Finset.range ((n + 1) * 5000), ext0 (fun r => z2of9 V c r q) i :=
  run_sum (N := cfg9.N) N_9 _ _
    (fun h => (congrArg (fun o => o.2.1 (ix2 u q)) (outs_A V c ⟨0, h⟩ rfl)).trans <| (pay5_apply _ _ _ _ _ _ _ u q).trans <|
      congrArg₂ (· + ·) (pay2_apply _) (Finset.sum_congr rfl fun p _ => zb_apply V c ⟨0, h⟩ p q))
    (fun n h => (congrArg (fun o => o.2.1 (ix2 u q))
        (outs_B V c ⟨n + 1, h⟩ (by have hN : cfg9.N = 20 := N_9; dsimp only; omega))).trans <|
      (pay5_apply _ _ _ _ _ _ _ u q).trans <| congrArg (_ + ·) (Finset.sum_congr rfl fun p _ => zb_apply V c ⟨n + 1, h⟩ p q))

theorem sumsq_at (u : Fin 1) (q : Fin 64) : ∀ n (h : n < cfg9.N), ((outsAt9 V c n h).2.2 : Vec Ideal S1x64 .f32) (ix2 u q)
    = ∑ i ∈ Finset.range ((n + 1) * 5000), ext0 (fun r => z2of9 V c r q * z2of9 V c r q) i :=
  run_sum (N := cfg9.N) N_9 _ _
    (fun h => (congrArg (fun o => o.2.2 (ix2 u q)) (outs_A V c ⟨0, h⟩ rfl)).trans <| (pay1_apply _ _ u q).trans <|
      congrArg₂ (· + ·) (pay3_apply _)
        (Finset.sum_congr rfl fun p _ => congrArg₂ (· * ·) (zb_apply V c ⟨0, h⟩ p q) (zb_apply V c ⟨0, h⟩ p q)))
    (fun n h => (congrArg (fun o => o.2.2 (ix2 u q))
        (outs_B V c ⟨n + 1, h⟩ (by have hN : cfg9.N = 20 := N_9; dsimp only; omega))).trans <|
      (pay1_apply _ _ u q).trans <| congrArg (_ + ·)
        (Finset.sum_congr rfl fun p _ => congrArg₂ (· * ·) (zb_apply V c ⟨n + 1, h⟩ p q) (zb_apply V c ⟨n + 1, h⟩ p q)))

theorem read6_apply (t : Fin cfg9.N) (G : Fin 100000 → Fin 64 → EReal) (p : Fin 5000) (q : Fin 64) :
    (((cfg9.win 6).blk t).view.read (Elt Ideal) (ofMat G) : Vec Ideal S5000x64 .f32) (ix2 p q) = G (rowAt t p) q :=
  congrArg₂ G (Fin.ext ((win9_6.rect_emb_val t (ix2 p q) 0).trans (congrArg (· * 5000 + p.val) (idx_row t).2.2.1)))
    (Fin.ext (win9_6.rect_emb_val_of_index_zero t 1 (idx_row t).2.2.2 (ix2 p q)))

theorem flushed6_eq (t : Fin cfg9.N) :
    (dat9 V c).flushed 6 t = ((cfg9.win 6).blk t).view.read (Elt Ideal) (ofMat (z2of9 V c)) := by
  show (cfg9.win 6).cut (grid9.coords t) ((dat9 V c).after 6 t) = _
  rw [after9_6, out6_at]
  funext y
  obtain ⟨p, q, rfl⟩ : ∃ (p : Fin 5000) (q : Fin 64), y = ix2 p q := ⟨y 0, y 1, eq_ix2 y⟩
  exact (zb_apply V c t p q).trans (read6_apply t (z2of9 V c) p q).symm

theorem cover6 (i : S100000x64.Idx) : ∃ t : Fin cfg9.N, (cfg9.win 6).flush t = true ∧ i ∈ ((cfg9.win 6).blk t).view.set := by
  obtain ⟨t, ht⟩ := RowBlocks.exists_mem_rect win9_6 (0 : Fin 2) 5000 (by decide +kernel) (by decide) (fun _ _ => rfl) (by decide) i
  exact ⟨t, flush9_6 t, by show i ∈ ((View.whole main_v89_0).slice (win9_6.rect t)).set; rw [View.set_slice_whole]; exact ht⟩

theorem read7_apply (t : Fin cfg9.N) (g : Fin 64 → EReal) (u : Fin 1) (q : Fin 64) :
    (((cfg9.win 7).blk t).view.read (Elt Ideal) (ofRow g) : Vec Ideal S1x64 .f32) (ix2 u q) = g q :=
  congrArg g (Fin.ext (win9_7.rect_emb_val_of_index_zero t 1 (idx_whole t 1).2.2.2.2.1 (ix2 u q)))

theorem flushed7_eq (t : Fin cfg9.N) (hf : (cfg9.win 7).flush t = true) :
    (dat9 V c).flushed 7 t = ((cfg9.win 7).blk t).view.read (Elt Ideal) (ofRow (colsum (z2of9 V c))) := by
  have hN : cfg9.N = 20 := N_9
  have h19 : t.val = 19 := by have := (flush9_7 t).mp hf; have := t.isLt; omega
  show (cfg9.win 7).cut (grid9.coords t) ((dat9 V c).after 7 t) = _
  rw [after9_7]
  funext y
  obtain ⟨u, q, rfl⟩ : ∃ (u : Fin 1) (q : Fin 64), y = ix2 u q := ⟨y 0, y 1, eq_ix2 y⟩
  exact ((sum_at V c u q t.val t.isLt).trans (sum_ext0_last _ t.val h19)).trans (read7_apply t (colsum (z2of9 V c)) u q).symm

theorem cover7 (i : S1x64.Idx) : ∃ t : Fin cfg9.N, (cfg9.win 7).flush t = true ∧ i ∈ ((cfg9.win 7).blk t).view.set := by
  have hN : cfg9.N = 20 := N_9
  let t : Fin cfg9.N := ⟨19, by omega⟩
  refine ⟨t, (flush9_7 t).mpr rfl, ?_⟩
  show i ∈ ((View.whole main_v89_1).slice (win9_7.rect t)).set
  rw [View.set_slice_whole]
  exact View.mem_set_unit_zero (funext fun a => by rw [(idx_whole t a).2.2.2.2.1]; exact Nat.zero_mul _) _ i

theorem read8_apply (t : Fin cfg9.N) (g : Fin 64 → EReal) (u : Fin 1) (q : Fin 64) :
    (((cfg9.win 8).blk t).view.read (Elt Ideal) (ofRow g) : Vec Ideal S1x64 .f32) (ix2 u q) = g q :=
  congrArg g (Fin.ext (win9_8.rect_emb_val_of_index_zero t 1 (idx_whole t 1).2.2.2.2.2 (ix2 u q)))

theorem flushed8_eq (t : Fin cfg9.N) (hf : (cfg9.win 8).flush t = true) :
    (dat9 V c).flushed 8 t = ((cfg9.win 8).blk t).view.read (Elt Ideal) (ofRow (colsumsq (z2of9 V c))) := by
  have hN : cfg9.N = 20 := N_9
  have h19 : t.val = 19 := by have := (flush9_8 t).mp hf; have := t.isLt; omega
  show (cfg9.win 8).cut (grid9.coords t) ((dat9 V c).after 8 t) = _
  rw [after9_8]
  funext y
  obtain ⟨u, q, rfl⟩ : ∃ (u : Fin 1) (q : Fin 64), y = ix2 u q := ⟨y 0, y 1, eq_ix2 y⟩
  exact ((sumsq_at V c u q t.val t.isLt).trans (sum_ext0_last _ t.val h19)).trans (read8_apply t (colsumsq (z2of9 V c)) u q).symm

theorem cover8 (i : S1x64.Idx) : ∃ t : Fin cfg9.N, (cfg9.win 8).flush t = true ∧ i ∈ ((cfg9.win 8).blk t).view.set := by
  have hN : cfg9.N = 20 := N_9
  let t : Fin cfg9.N := ⟨19, by omega⟩
  refine ⟨t, (flush9_8 t).mpr rfl, ?_⟩
  show i ∈ ((View.whole main_v89_2).slice (win9_8.rect t)).set
  rw [View.set_slice_whole]
  exact View.mem_set_unit_zero (funext fun a => by rw [(idx_whole t a).2.2.2.2.2]; exact Nat.zero_mul _) _ i

end Region

end Mlp9

open Mlp9

theorem mlp9_z2 (V : (c : Dev nD) → (b : Ref sig .tc) → Buf (Elt Ideal) ((c : Thread nD τ).loc b)) (c : Dev nD) :
    (dat9 (F := Ideal) V c).arrAt 6 cfg9.N = ofMat (z2of9 V c) :=
  (dat9 (F := Ideal) V c).arrAt_eq_of_cover 6 (ofMat (z2of9 V c)) (fun t _ => flushed6_eq V c t) cover6

theorem mlp9_sum (V : (c : Dev nD) → (b : Ref sig .tc) → Buf (Elt Ideal) ((c : Thread nD τ).loc b)) (c : Dev nD) :
    (dat9 (F := Ideal) V c).arrAt 7 cfg9.N = ofRow (colsum (z2of9 V c)) :=
  (dat9 (F := Ideal) V c).arrAt_eq_of_cover 7 (ofRow (colsum (z2of9 V c))) (flushed7_eq V c) cover7

theorem mlp9_sumsq (V : (c : Dev nD) → (b : Ref sig .tc) → Buf (Elt Ideal) ((c : Thread nD τ).loc b)) (c : Dev nD) :
    (dat9 (F := Ideal) V c).arrAt 8 cfg9.N = ofRow (colsumsq (z2of9 V c)) :=
  (dat9 (F := Ideal) V c).arrAt_eq_of_cover 8 (ofRow (colsumsq (z2of9 V c))) (flushed8_eq V c) cover8

end Cert.KernelIdeal.Val
end
-- ==== Proof.KNorm10.lean ====
import proofs.«427245_j11416023073365_2_alg».proof.Proof.Gen.KernelIdeal.Frame
import proofs.«427245_j11416023073365_2_alg».proof.Proof.KRows

noncomputable section

namespace Cert.KernelIdeal.Val

open Cert.KernelIdeal Cert.KernelIdeal.Gen Gnn RowBlocks Idealize.ShloMosaic Idealize.ShloMosaic.ValueIdx Idealize.ShloMosaic.TcCoe

variable (V : (c : Dev nD) → (b : Ref sig .tc) → Buf (Elt Ideal) ((c : Thread nD τ).loc b)) (c : Dev nD)

theorem norm10_stored (var : Vec Ideal S1x64 .f32) (z : Vec Ideal S5000x64 .f32) (mean g b : Vec Ideal S1x64 .f32) (p : Fin 5000) (q : Fin 64) :
    k10_pay1 var z mean g b (ix2 p q)
      = max ((z (ix2 p q) - mean (ix2 0 q)) * Ideal.rsqrt (var (ix2 0 q) + epsBN) * g (ix2 0 q) + b (ix2 0 q)) 0 := by
  unfold k10_pay1
  simp only [shapeCast_self]
  rw [maximumf_apply, addf_apply, mulf_apply, mulf_apply, subf_apply, bcast_row, bcast_row, bcast_row, bcast_row]
  exact congrArg (max _) Ideal.ofBits_zero_f32

theorem norm10_index : ∀ t : Fin cfg10.N, win10_0.index t = win10_5.index t ∧ win10_5.index t (1 : Fin 2) = 0 ∧ win10_1.index t (1 : Fin 2) = 0
    ∧ win10_2.index t (1 : Fin 2) = 0 ∧ win10_3.index t (1 : Fin 2) = 0 ∧ win10_4.index t (1 : Fin 2) = 0 :=
  (by decide +kernel : ∀ t : Fin grid10.N, _)

/-- Point t writes back block t of the normalised, rectified array. -/
theorem norm10_written (t : Fin cfg10.N) : (dat10 (F := Ideal) V c).flushed 5 t = ((cfg10.win 5).blk t).view.read (Elt Ideal)
    (ofMat (bnRelu (toMat (V c main_v89_0)) (rowOf (V c main_v102)) (rowOf (V c main_v103)) (rowOf (V c main_v104)) (rowOf (V c main_v105)))) := by
  show (cfg10.win 5).cut (grid10.coords t) ((dat10 (F := Ideal) V c).after 5 t) = _
  rw [after10_5]
  unfold out10_5
  rw [View.canon_unit_zero zeros2]
  simp only [View.ld_unit_zero (S := S5000x64) zeros2, View.ld_unit_zero (S := S1x64) zeros2]
  funext j
  obtain ⟨p, q, rfl⟩ : ∃ (p : Fin 5000) (q : Fin 64), j = ix2 p q := ⟨j 0, j 1, eq_ix2 j⟩
  obtain ⟨e0, e51, e11, e21, e31, e41⟩ := norm10_index t
  have hq := (win10_5.rect_emb_val_of_index_zero t 1 e51 (ix2 p q)).symm
  exact (norm10_stored _ _ _ _ _ p q).trans (bnRelu_at_of (V c main_v89_0) (V c main_v102) (V c main_v103) (V c main_v104) (V c main_v105)
    (iblk10 V c 0 t) (iblk10 V c 1 t) (iblk10 V c 2 t) (iblk10 V c 3 t) (iblk10 V c 4 t) p q (((cfg10.win 5).blk t).view.emb (ix2 p q))
    (congrArg (V c main_v89_0 : S100000x64.Idx → EReal) (emb_eq e0 (win10_0.rect_emb_val t (ix2 p q)) (win10_5.rect_emb_val t (ix2 p q))))
    (row_at (V c main_v102 : S1x64.Idx → EReal) ((win10_1.rect_emb_val_of_index_zero t 1 e11 (ix2 0 q)).trans hq))
    (row_at (V c main_v103 : S1x64.Idx → EReal) ((win10_2.rect_emb_val_of_index_zero t 1 e21 (ix2 0 q)).trans hq))
    (row_at (V c main_v104 : S1x64.Idx → EReal) ((win10_3.rect_emb_val_of_index_zero t 1 e31 (ix2 0 q)).trans hq))
    (row_at (V c main_v105 : S1x64.Idx → EReal) ((win10_4.rect_emb_val_of_index_zero t 1 e41 (ix2 0 q)).trans hq)))

/-- The 20 blocks of 5000 rows tile the array, so it ends as the batch normalisation of the pre-activation array, rectified. -/
theorem norm10_value : (dat10 (F := Ideal) V c).arrAt 5 cfg10.N
    = ofMat (bnRelu (toMat (V c main_v89_0)) (rowOf (V c main_v102)) (rowOf (V c main_v103)) (rowOf (V c main_v104)) (rowOf (V c main_v105))) :=
  (dat10 (F := Ideal) V c).arrAt_eq_of_cover 5 _ (fun t _ => norm10_written V c t) fun i =>
    (exists_mem_rect win10_5 ⟨0, by decide⟩ 5000 (by decide +kernel) (by decide) (fun _ _ => rfl) (by decide) i).imp fun t h =>
      ⟨flush10_5 t, (congrArg (i ∈ ·) (View.set_slice_whole main_v106 (win10_5.rect t))).mpr h⟩

end Cert.KernelIdeal.Val

end
-- ==== Proof.Persist.lean ====
import proofs.«427245_j11416023073365_2_alg».proof.Proof.Gen.KernelIdeal.Frame

noncomputable section

namespace Idealize.ShloMosaic

open TcCoe Idealize.SL Idealize.SL.Sem Idealize.SL.RA

variable {nD : Nat} {τ : Topo} {sig : RefSig} {Val : EltTy → Type}

/-- Operations that each write one buffer of index `n` or more leave every buffer of smaller index as it was. -/
theorem StableHlo.after_keep {n : ℕ} {ops : List (HloOp τ sig Val)} (V : Valuation τ sig Val)
    (h : ops.Forall fun op => ∃ y : Ref sig .tc, op.writes = {Proc.devRef .tc y} ∧ n ≤ (y.idx : ℕ))
    {b : Ref sig .tc} (hb : (b.idx : ℕ) < n) : StableHlo.after ops V (Proc.devRef .tc b) = V (Proc.devRef .tc b) :=
  StableHlo.after_of_forall_not_mem ops V fun op hop hm => by
    obtain ⟨y, hy, hn⟩ := List.forall_iff_forall_mem.mp h op hop
    rw [hy, Finset.mem_singleton] at hm
    rw [Proc.devRef_injective _ hm] at hb
    exact absurd hb (not_lt.mpr hn)

variable {Ix : Type} [DecidableEq Ix] {Name : Type} [DecidableEq Name] {U : Type} [URA U] {Lvl : Type}
variable {Λ₀ : SL.Sem.Labels} {cfg : Pipeline.Cfg sig Λ₀} {c : Dev nD}

/-- A region whose output arrays have index `n` or more leaves every buffer of smaller index as it was. -/
theorem Pipeline.withArrays_keep (dat : Pipeline.Dat τ Val Ix Name U Lvl cfg c) (V : Valuation τ sig Val)
    (hinj : Function.Injective (Pipeline.arrRef fun w => (cfg.win w).toWinSpec))
    (hA : ∀ w, dat.A w = V (Proc.devRef .tc (Pipeline.arrRef (fun w => (cfg.win w).toWinSpec) w))) {n : ℕ}
    (hout : ∀ w, (cfg.win w).isOut = true → n ≤ ((Pipeline.arrRef (fun w => (cfg.win w).toWinSpec) w).idx : ℕ))
    {b : Ref sig .tc} (hb : (b.idx : ℕ) < n) :
    Pipeline.withArrays (fun w => (cfg.win w).toWinSpec) c V (fun w => dat.arrAt w cfg.N) (Proc.devRef .tc b)
      = V (Proc.devRef .tc b) := by
  by_cases hw : ∃ w, Pipeline.arrRef (fun w => (cfg.win w).toWinSpec) w = b
  · obtain ⟨w, rfl⟩ := hw
    have hin : (cfg.win w).isOut = false := by
      cases ho : (cfg.win w).isOut
      · rfl
      · exact absurd hb (not_lt.mpr (hout w ho))
    rw [Pipeline.withArrays_arr _ hinj, dat.arrAt_in w hin, hA]
  · exact Pipeline.withArrays_of_ne _ c V _ b fun w e => hw ⟨w, e⟩

end Idealize.ShloMosaic

namespace Cert.KernelIdeal.Persist

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The buffer contents at the boundaries of the run, numbered from the launch. -/
def Wn : ℕ → Valuation τ sig (Elt F)
  | 0 => W0 m ρ c | 1 => W1 m ρ c | 2 => W2 m ρ c | 3 => W3 m ρ c | 4 => W4 m ρ c | 5 => W5 m ρ c | 6 => W6 m ρ c | 7 => W7 m ρ c | 8 => W8 m ρ c | 9 => W9 m ρ c | 10 => W10 m ρ c | 11 => W11 m ρ c | 12 => W12 m ρ c | 13 => W13 m ρ c | 14 => W14 m ρ c | 15 => W15 m ρ c | 16 => W16 m ρ c | 17 => W17 m ρ c | 18 => W18 m ρ c | 19 => W19 m ρ c | 20 => W20 m ρ c | 21 => W21 m ρ c | 22 => W22 m ρ c | _ => W23 m ρ c

/-- The smallest buffer index that the step after boundary `n` writes; the steps write increasing indices. -/
def lo (n : ℕ) : ℕ :=
  [14, 19, 20, 21, 22, 45, 46, 60, 63, 81, 82, 105, 106, 120, 123, 141, 142, 165, 166, 180, 183, 201, 202].getD n 218

macro "above " ops:ident : tactic =>
  `(tactic| (simp only [$ops:ident, List.Forall]; (repeat' apply And.intro); all_goals exact ⟨_, rfl, by decide⟩))

/-- A stretch of host operations keeps the buffers written before it. -/
theorem host_step {b : Ref sig .tc} : ∀ k, (b.idx : ℕ) < lo (2 * k) →
    Wn m ρ c (2 * k + 1) (Proc.devRef .tc b) = Wn m ρ c (2 * k) (Proc.devRef .tc b)
  | 0, h => StableHlo.after_keep (ops := hostOps0) _ (by above hostOps0) h
  | 1, h => StableHlo.after_keep (ops := hostOps1) _ (by above hostOps1) h
  | 2, h => StableHlo.after_keep (ops := hostOps2) _ (by above hostOps2) h
  | 3, h => StableHlo.after_keep (ops := hostOps3) _ (by above hostOps3) h
  | 4, h => StableHlo.after_keep (ops := hostOps4) _ (by above hostOps4) h
  | 5, h => StableHlo.after_keep (ops := hostOps5) _ (by above hostOps5) h
  | 6, h => StableHlo.after_keep (ops := hostOps6) _ (by above hostOps6) h
  | 7, h => StableHlo.after_keep (ops := hostOps7) _ (by above hostOps7) h
  | 8, h => StableHlo.after_keep (ops := hostOps8) _ (by above hostOps8) h
  | 9, h => StableHlo.after_keep (ops := hostOps9) _ (by above hostOps9) h
  | 10, h => StableHlo.after_keep (ops := hostOps10) _ (by above hostOps10) h
  | 11, h => StableHlo.after_keep (ops := hostOps11) _ (by above hostOps11) h
  | _ + 12, _ => rfl

/-- A region keeps the buffers written before it. -/
theorem region_step {b : Ref sig .tc} : ∀ k, (b.idx : ℕ) < lo (2 * k + 1) →
    Wn m ρ c (2 * k + 2) (Proc.devRef .tc b) = Wn m ρ c (2 * k + 1) (Proc.devRef .tc b)
  | 0, h => Pipeline.withArrays_keep (dat0 (V1 m ρ) c) _ launch0.win.arr_inj (A_eq0 (V1 m ρ) c) (by decide) h
  | 1, h => Pipeline.withArrays_keep (dat1 (V3 m ρ) c) _ launch1.win.arr_inj (A_eq1 (V3 m ρ) c) (by decide) h
  | 2, h => Pipeline.withArrays_keep (dat2 (V5 m ρ) c) _ launch2.win.arr_inj (A_eq2 (V5 m ρ) c) (by decide) h
  | 3, h => Pipeline.withArrays_keep (dat3 (V7 m ρ) c) _ launch3.win.arr_inj (A_eq3 (V7 m ρ) c) (by decide) h
  | 4, h => Pipeline.withArrays_keep (dat4 (V9 m ρ) c) _ launch4.win.arr_inj (A_eq4 (V9 m ρ) c) (by decide) h
  | 5, h => Pipeline.withArrays_keep (dat5 (V11 m ρ) c) _ launch5.win.arr_inj (A_eq5 (V11 m ρ) c) (by decide) h
  | 6, h => Pipeline.withArrays_keep (dat6 (V13 m ρ) c) _ launch6.win.arr_inj (A_eq6 (V13 m ρ) c) (by decide) h
  | 7, h => Pipeline.withArrays_keep (dat7 (V15 m ρ) c) _ launch7.win.arr_inj (A_eq7 (V15 m ρ) c) (by decide) h
  | 8, h => Pipeline.withArrays_keep (dat8 (V17 m ρ) c) _ launch8.win.arr_inj (A_eq8 (V17 m ρ) c) (by decide) h
  | 9, h => Pipeline.withArrays_keep (dat9 (V19 m ρ) c) _ launch9.win.arr_inj (A_eq9 (V19 m ρ) c) (by decide) h
  | 10, h => Pipeline.withArrays_keep (dat10 (V21 m ρ) c) _ launch10.win.arr_inj (A_eq10 (V21 m ρ) c) (by decide) h
  | _ + 11, _ => rfl

theorem step {b : Ref sig .tc} (n : ℕ) (h : (b.idx : ℕ) < lo n) :
    Wn m ρ c (n + 1) (Proc.devRef .tc b) = Wn m ρ c n (Proc.devRef .tc b) := by
  obtain ⟨k, rfl | rfl⟩ := Nat.even_or_odd' n
  · exact host_step m ρ c k h
  · exact region_step m ρ c k h

/-- Single assignment: a buffer written before boundary `i` holds at every later boundary what it holds at `i`. -/
theorem keep (i j : ℕ) {b : Ref sig .tc} (hij : i ≤ j := by decide)
    (hb : ∀ k < j, i ≤ k → (b.idx : ℕ) < lo k := by decide) :
    Wn m ρ c j (Proc.devRef .tc b) = Wn m ρ c i (Proc.devRef .tc b) := by
  induction j, hij using Nat.le_induction with
  | base => rfl
  | succ k hk ih =>
    exact (step m ρ c k (hb k k.lt_succ_self hk)).trans (ih fun l hl => hb l (hl.trans k.lt_succ_self))

end Cert.KernelIdeal.Persist

end
-- ==== Proof.Glue.lean ====
import proofs.«427245_j11416023073365_2_alg».proof.KernelIdeal
import proofs.«427245_j11416023073365_2_alg».proof.Proof.Spec
import Idealize.ShloMosaic.Lib.Pipeline.Value
import Idealize.ShloMosaic.Lib.ValueIdx

noncomputable section

namespace Cert.KernelIdeal.Glue

open Cert.KernelIdeal Gnn Idealize.ShloMosaic Idealize.ShloMosaic.ValueIdx

theorem rowOf_addUnit (x : S64.Idx → EReal) (h : S64.ShapeCasts S1x64) :
    rowOf (shapeCast S1x64 x h) = toVec x := by
  funext q
  show shapeCast S1x64 x h (ix2 0 q) = x (ix1 q)
  rw [shapeCast_addUnit_apply ![64] x h (ix2 0 q)]
  exact congrArg x (funext fun a => match a with | ⟨0, _⟩ => rfl)

theorem toVec_dropUnit (x : S1x64.Idx → EReal) (h : S1x64.ShapeCasts S64) :
    toVec (shapeCast S64 x h) = rowOf x := by
  funext q
  show shapeCast S64 x h (ix1 q) = x (ix2 0 q)
  rw [shapeCast_dropUnit_apply ![64] x h (ix1 q)]
  exact congrArg x (funext fun a => match a with | ⟨0, _⟩ => rfl | ⟨1, _⟩ => rfl)

theorem toVec_div_nodes (x : FVec Ideal S64 .f32) (h : S_.BroadcastsInDim S64 ![]) :
    toVec (Host.divf x (broadcastInDim S64 ![] h (constant (F := Ideal) S_ .f32 0x47C35000#32))) = meanOf (toVec x) := by
  funext q
  rfl

theorem toVec_varK (s ss : FVec Ideal S64 .f32) (h : S_.BroadcastsInDim S64 ![]) :
    toVec (subf (Host.divf ss (broadcastInDim S64 ![] h (constant (F := Ideal) S_ .f32 0x47C35000#32)))
      (mulf (Host.divf s (broadcastInDim S64 ![] h (constant (F := Ideal) S_ .f32 0x47C35000#32)))
            (Host.divf s (broadcastInDim S64 ![] h (constant (F := Ideal) S_ .f32 0x47C35000#32)))))
      = varK (toVec s) (toVec ss) := by
  funext q
  rfl

end Cert.KernelIdeal.Glue

end
-- ==== Proof.KDefs.lean ====
import proofs.«427245_j11416023073365_2_alg».proof.Proof.Gen.KernelIdeal

noncomputable section

namespace Cert.KernelIdeal.KDefs

open Cert.KernelIdeal Cert.KernelIdeal.Gen Idealize.ShloMosaic

variable {F : FTy → Type} [FloatOps F]

def srcOf (x2 : IVec S2x3200000 32) : IVec S3200000 32 :=
  shapeCast S3200000 (extractStridedSlice S1x3200000 ![0, 0] x2 slices_S2x3200000_S1x3200000_0_0) shapeCasts_S1x3200000_S3200000

def dstOf (x2 : IVec S2x3200000 32) : IVec S3200000 32 :=
  shapeCast S3200000 (extractStridedSlice S1x3200000 ![1, 0] x2 slices_S2x3200000_S1x3200000_1_0) shapeCasts_S1x3200000_S3200000

def wrapIdx (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

def gatherRows (h : FVec F S100000x64 .f32) (s : IVec S3200000 32) : FVec F S3200000x64 .f32 :=
  Host.gather gather_S100000x64_S3200000x1_S3200000x64_1_0_n_n_0_1_164 h (wrapIdx s)

def scatAdd (d : IVec S3200000 32) (u : FVec F S3200000x64 .f32) : FVec F S100000x64 .f32 :=
  Host.scatterAdd scatter_S100000x64_S3200000x1_S3200000x64_1_0_0_1
    (broadcastInDim S100000x64 ![] bcast_S_S100000x64 (constant (F := F) S_ .f32 0x00000000#32))
    (broadcastInDim S3200000x1 ![0] bcast_S3200000_S3200000x1_0 d) u

def wSlice0 (x : FVec F S3x64x64 .f32) : FVec F S64x64 .f32 :=
  shapeCast S64x64 (extractStridedSlice S1x64x64 ![0, 0, 0] x slices_S3x64x64_S1x64x64_0_0_0) shapeCasts_S1x64x64_S64x64

def bVec0 (x : FVec F S3x64 .f32) : FVec F S64 .f32 :=
  shapeCast S64 (extractStridedSlice S1x64 ![0, 0] x slices_S3x64_S1x64_0_0) shapeCasts_S1x64_S64

def bRow0 (x : FVec F S3x64 .f32) : FVec F S1x64 .f32 := shapeCast S1x64 (bVec0 x) shapeCasts_S64_S1x64

def wSlice1 (x : FVec F S3x64x64 .f32) : FVec F S64x64 .f32 :=
  shapeCast S64x64 (extractStridedSlice S1x64x64 ![1, 0, 0] x slices_S3x64x64_S1x64x64_1_0_0) shapeCasts_S1x64x64_S64x64

def bVec1 (x : FVec F S3x64 .f32) : FVec F S64 .f32 :=
  shapeCast S64 (extractStridedSlice S1x64 ![1, 0] x slices_S3x64_S1x64_1_0) shapeCasts_S1x64_S64

def bRow1 (x : FVec F S3x64 .f32) : FVec F S1x64 .f32 := shapeCast S1x64 (bVec1 x) shapeCasts_S64_S1x64

def wSlice2 (x : FVec F S3x64x64 .f32) : FVec F S64x64 .f32 :=
  shapeCast S64x64 (extractStridedSlice S1x64x64 ![2, 0, 0] x slices_S3x64x64_S1x64x64_2_0_0) shapeCasts_S1x64x64_S64x64

def bVec2 (x : FVec F S3x64 .f32) : FVec F S64 .f32 :=
  shapeCast S64 (extractStridedSlice S1x64 ![2, 0] x slices_S3x64_S1x64_2_0) shapeCasts_S1x64_S64

def bRow2 (x : FVec F S3x64 .f32) : FVec F S1x64 .f32 := shapeCast S1x64 (bVec2 x) shapeCasts_S64_S1x64

def pool (h : FVec F S100000x64 .f32) (b : IVec S100000 32) : FVec F S256x64 .f32 :=
  Host.divf
    (Host.scatterAdd scatter_S256x64_S100000x1_S100000x64_1_0_0_1
      (broadcastInDim S256x64 ![] bcast_S_S256x64 (constant (F := F) S_ .f32 0x00000000#32))
      (broadcastInDim S100000x1 ![0] bcast_S100000_S100000x1_0 b) h)
    (broadcastInDim S256x64 ![0, 1] bcast_S256x1_S256x64_0_1
      (broadcastInDim S256x1 ![0] bcast_S256_S256x1_0
        (maximumf
          (Host.scatterAdd scatter_S256_S100000x1_S100000_n_0_0_1
            (broadcastInDim S256 ![] bcast_S_S256 (constant (F := F) S_ .f32 0x00000000#32))
            (broadcastInDim S100000x1 ![0] bcast_S100000_S100000x1_0 b)
            (broadcastInDim S100000 ![] bcast_S_S100000 (constant (F := F) S_ .f32 0x3F800000#32)))
          (broadcastInDim S256 ![] bcast_S_S256 (constant (F := F) S_ .f32 0x3F800000#32)))))

def inBounds (s : IVec S3200000 32) : IVec S3200000 1 :=
  Host.reduce IntOp.andi
    (andi (cmpi .sge (wrapIdx s) (broadcastInDim S3200000x1 ![] bcast_S_S3200000x1 (constantI S_ 32 0#32)))
      (cmpi .sle (wrapIdx s) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

def takeFill (h : FVec F S100000x64 .f32) (s : IVec S3200000 32) : FVec F S3200000x64 .f32 :=
  select (broadcastInDim S3200000x64 ![0] bcast_S3200000_S3200000x64_0 (inBounds s))
    (gatherRows h s)
    (broadcastInDim S3200000x64 ![] bcast_S_S3200000x64 (constant (F := F) S_ .f32 0x7FC00000#32))

def meanRow (s : FVec F S1x64 .f32) : FVec F S1x64 .f32 :=
  shapeCast S1x64 (Host.divf (shapeCast S64 s shapeCasts_S1x64_S64)
    (broadcastInDim S64 ![] bcast_S_S64 (constant (F := F) S_ .f32 0x47C35000#32))) shapeCasts_S64_S1x64

def varRow (s ss : FVec F S1x64 .f32) : FVec F S1x64 .f32 :=
  shapeCast S1x64 (subf (Host.divf (shapeCast S64 ss shapeCasts_S1x64_S64)
      (broadcastInDim S64 ![] bcast_S_S64 (constant (F := F) S_ .f32 0x47C35000#32)))
    (mulf (Host.divf (shapeCast S64 s shapeCasts_S1x64_S64)
        (broadcastInDim S64 ![] bcast_S_S64 (constant (F := F) S_ .f32 0x47C35000#32)))
      (Host.divf (shapeCast S64 s shapeCasts_S1x64_S64)
        (broadcastInDim S64 ![] bcast_S_S64 (constant (F := F) S_ .f32 0x47C35000#32))))) shapeCasts_S64_S1x64

end Cert.KernelIdeal.KDefs

end
-- ==== Proof.LibCast.lean ====
import Idealize.ShloMosaic.Lib.StableHlo

namespace Idealize.ShloMosaic.StableHlo.TRef

theorem ofBuf_toBuf {sig : RefSig} {Val : EltTy → Type} {T : BufTy} (x : TRef sig T) (v : T.Contents Val) :
    x.ofBuf (x.toBuf v) = v := by
  obtain ⟨r, h, h2, h3⟩ := x
  subst h
  rfl

end Idealize.ShloMosaic.StableHlo.TRef
-- ==== Proof.HostEnds.lean ====
import proofs.«427245_j11416023073365_2_alg».proof.Proof.Gen.KernelIdeal.Frame
import proofs.«427245_j11416023073365_2_alg».proof.Proof.KDefs
import proofs.«427245_j11416023073365_2_alg».proof.Proof.LibCast

set_option maxRecDepth 16384

noncomputable section

namespace Cert.KernelIdeal.Host

open Cert.KernelIdeal Cert.KernelIdeal.Gen Cert.KernelIdeal.KDefs
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

theorem v1_at_1 : W1 m ρ c (Proc.devRef .tc main_v1) = srcOf (m ((c : Thread nD τ).loc main_arg2)) := by
  after_results
  rfl

theorem v3_at_1 : W1 m ρ c (Proc.devRef .tc main_v3) = dstOf (m ((c : Thread nD τ).loc main_arg2)) := by
  after_results
  rfl

theorem v4_at_1 : W1 m ρ c (Proc.devRef .tc main_v4) = shapeCast S1x64 (m ((c : Thread nD τ).loc main_arg5)) shapeCasts_S64_S1x64 := by
  after_results
  rfl

theorem v6_at_3 : W3 m ρ c (Proc.devRef .tc main_v6) = shapeCast S1x64 (W2 m ρ c (Proc.devRef .tc main_arg7)) shapeCasts_S64_S1x64 := by
  after_results
  rfl

theorem v118_at_23 : W23 m ρ c (Proc.devRef .tc main_v118) = pool (W22 m ρ c (Proc.devRef .tc main_v106)) (W22 m ρ c (Proc.devRef .tc main_arg3)) := by
  after_results_simp
  rfl

end Cert.KernelIdeal.Host

end
-- ==== Proof.HostL0.lean ====
import proofs.«427245_j11416023073365_2_alg».proof.Proof.Gen.KernelIdeal.Frame
import proofs.«427245_j11416023073365_2_alg».proof.Proof.KDefs
import proofs.«427245_j11416023073365_2_alg».proof.Proof.LibCast

set_option maxRecDepth 16384

noncomputable section

namespace Cert.KernelIdeal.Host

open Cert.KernelIdeal Cert.KernelIdeal.Gen Cert.KernelIdeal.KDefs
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

theorem l0_ofBuf_idx (p q r) (v : main_v1.ty.Contents (Elt F)) :
    (StableHlo.TRef.of (T := ⟨S3200000, .i32⟩) main_v1 p q r).ofBuf v = v := rfl
theorem l0_ofBuf_nodes (p q r) (v : main_v5.ty.Contents (Elt F)) :
    (StableHlo.TRef.of (T := ⟨S100000x64, .f32⟩) main_v5 p q r).ofBuf v = v := rfl
theorem l0_toBuf_rows (p q r) (v : (⟨S3200000x64, .f32⟩ : BufTy).Contents (Elt F)) :
    (StableHlo.TRef.of (T := ⟨S3200000x64, .f32⟩) main_v8 p q r).toBuf v = v := rfl

theorem v8_at_5 : W5 m ρ c (Proc.devRef .tc main_v8)
    = takeFill (W4 m ρ c (Proc.devRef .tc main_v5)) (W4 m ρ c (Proc.devRef .tc main_v1)) := by
  after_results_simp
  simp only [Idealize.ShloMosaic.StableHlo.TRef.ofBuf_toBuf, l0_ofBuf_idx, l0_ofBuf_nodes, l0_toBuf_rows]
  rfl

theorem v12_at_7 : W7 m ρ c (Proc.devRef .tc main_v12) = scatAdd (W6 m ρ c (Proc.devRef .tc main_v3)) (W6 m ρ c (Proc.devRef .tc main_v9)) := by
  after_results
  rfl

theorem v14_at_7 : W7 m ρ c (Proc.devRef .tc main_v14) = wSlice0 (W6 m ρ c (Proc.devRef .tc main_arg8)) := by
  after_results
  rfl

theorem v18_at_7 : W7 m ρ c (Proc.devRef .tc main_v18) = wSlice0 (W6 m ρ c (Proc.devRef .tc main_arg10)) := by
  after_results
  rfl

theorem v21_at_7 : W7 m ρ c (Proc.devRef .tc main_v21) = bRow0 (W6 m ρ c (Proc.devRef .tc main_arg9)) := by
  after_results
  rfl

theorem v22_at_7 : W7 m ρ c (Proc.devRef .tc main_v22) = bRow0 (W6 m ρ c (Proc.devRef .tc main_arg11)) := by
  after_results
  rfl

theorem v36_at_9 : W9 m ρ c (Proc.devRef .tc main_v36) = meanRow (W8 m ρ c (Proc.devRef .tc main_v23_1)) := by
  after_results
  rfl

theorem v37_at_9 : W9 m ρ c (Proc.devRef .tc main_v37) = varRow (W8 m ρ c (Proc.devRef .tc main_v23_1)) (W8 m ρ c (Proc.devRef .tc main_v23_2)) := by
  after_results
  rfl

theorem v38_at_9 : W9 m ρ c (Proc.devRef .tc main_v38) = bRow0 (W8 m ρ c (Proc.devRef .tc main_arg12)) := by
  after_results
  rfl

theorem v39_at_9 : W9 m ρ c (Proc.devRef .tc main_v39) = bRow0 (W8 m ρ c (Proc.devRef .tc main_arg13)) := by
  after_results
  rfl

end Cert.KernelIdeal.Host

end
-- ==== Proof.HostL1.lean ====
import proofs.«427245_j11416023073365_2_alg».proof.Proof.Gen.KernelIdeal.Frame
import proofs.«427245_j11416023073365_2_alg».proof.Proof.KDefs
import proofs.«427245_j11416023073365_2_alg».proof.Proof.LibCast

set_option maxRecDepth 16384

noncomputable section

namespace Cert.KernelIdeal.Host

open Cert.KernelIdeal Cert.KernelIdeal.Gen Cert.KernelIdeal.KDefs
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

theorem l1_ofBuf_idx (p q r) (v : main_v1.ty.Contents (Elt F)) :
    (StableHlo.TRef.of (T := ⟨S3200000, .i32⟩) main_v1 p q r).ofBuf v = v := rfl
theorem l1_ofBuf_nodes (p q r) (v : main_v40.ty.Contents (Elt F)) :
    (StableHlo.TRef.of (T := ⟨S100000x64, .f32⟩) main_v40 p q r).ofBuf v = v := rfl
theorem l1_toBuf_rows (p q r) (v : (⟨S3200000x64, .f32⟩ : BufTy).Contents (Elt F)) :
    (StableHlo.TRef.of (T := ⟨S3200000x64, .f32⟩) main_v41 p q r).toBuf v = v := rfl

theorem v41_at_11 : W11 m ρ c (Proc.devRef .tc main_v41)
    = takeFill (W10 m ρ c (Proc.devRef .tc main_v40)) (W10 m ρ c (Proc.devRef .tc main_v1)) := by
  after_results_simp
  simp only [Idealize.ShloMosaic.StableHlo.TRef.ofBuf_toBuf, l1_ofBuf_idx, l1_ofBuf_nodes, l1_toBuf_rows]
  rfl

theorem v45_at_13 : W13 m ρ c (Proc.devRef .tc main_v45) = scatAdd (W12 m ρ c (Proc.devRef .tc main_v3)) (W12 m ρ c (Proc.devRef .tc main_v42)) := by
  after_results
  rfl

theorem v47_at_13 : W13 m ρ c (Proc.devRef .tc main_v47) = wSlice1 (W12 m ρ c (Proc.devRef .tc main_arg8)) := by
  after_results
  rfl

theorem v51_at_13 : W13 m ρ c (Proc.devRef .tc main_v51) = wSlice1 (W12 m ρ c (Proc.devRef .tc main_arg10)) := by
  after_results
  rfl

theorem v54_at_13 : W13 m ρ c (Proc.devRef .tc main_v54) = bRow1 (W12 m ρ c (Proc.devRef .tc main_arg9)) := by
  after_results
  rfl

theorem v55_at_13 : W13 m ρ c (Proc.devRef .tc main_v55) = bRow1 (W12 m ρ c (Proc.devRef .tc main_arg11)) := by
  after_results
  rfl

theorem v69_at_15 : W15 m ρ c (Proc.devRef .tc main_v69) = meanRow (W14 m ρ c (Proc.devRef .tc main_v56_1)) := by
  after_results
  rfl

theorem v70_at_15 : W15 m ρ c (Proc.devRef .tc main_v70) = varRow (W14 m ρ c (Proc.devRef .tc main_v56_1)) (W14 m ρ c (Proc.devRef .tc main_v56_2)) := by
  after_results
  rfl

theorem v71_at_15 : W15 m ρ c (Proc.devRef .tc main_v71) = bRow1 (W14 m ρ c (Proc.devRef .tc main_arg12)) := by
  after_results
  rfl

theorem v72_at_15 : W15 m ρ c (Proc.devRef .tc main_v72) = bRow1 (W14 m ρ c (Proc.devRef .tc main_arg13)) := by
  after_results
  rfl

end Cert.KernelIdeal.Host

end
-- ==== Proof.HostL2.lean ====
import proofs.«427245_j11416023073365_2_alg».proof.Proof.Gen.KernelIdeal.Frame
import proofs.«427245_j11416023073365_2_alg».proof.Proof.KDefs
import proofs.«427245_j11416023073365_2_alg».proof.Proof.LibCast

set_option maxRecDepth 16384

noncomputable section

namespace Cert.KernelIdeal.Host

open Cert.KernelIdeal Cert.KernelIdeal.Gen Cert.KernelIdeal.KDefs
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

theorem l2_ofBuf_idx (p q r) (v : main_v1.ty.Contents (Elt F)) :
    (StableHlo.TRef.of (T := ⟨S3200000, .i32⟩) main_v1 p q r).ofBuf v = v := rfl
theorem l2_ofBuf_nodes (p q r) (v : main_v73.ty.Contents (Elt F)) :
    (StableHlo.TRef.of (T := ⟨S100000x64, .f32⟩) main_v73 p q r).ofBuf v = v := rfl
theorem l2_toBuf_rows (p q r) (v : (⟨S3200000x64, .f32⟩ : BufTy).Contents (Elt F)) :
    (StableHlo.TRef.of (T := ⟨S3200000x64, .f32⟩) main_v74 p q r).toBuf v = v := rfl

theorem v74_at_17 : W17 m ρ c (Proc.devRef .tc main_v74)
    = takeFill (W16 m ρ c (Proc.devRef .tc main_v73)) (W16 m ρ c (Proc.devRef .tc main_v1)) := by
  after_results_simp
  simp only [Idealize.ShloMosaic.StableHlo.TRef.ofBuf_toBuf, l2_ofBuf_idx, l2_ofBuf_nodes, l2_toBuf_rows]
  rfl

theorem v78_at_19 : W19 m ρ c (Proc.devRef .tc main_v78) = scatAdd (W18 m ρ c (Proc.devRef .tc main_v3)) (W18 m ρ c (Proc.devRef .tc main_v75)) := by
  after_results
  rfl

theorem v80_at_19 : W19 m ρ c (Proc.devRef .tc main_v80) = wSlice2 (W18 m ρ c (Proc.devRef .tc main_arg8)) := by
  after_results
  rfl

theorem v84_at_19 : W19 m ρ c (Proc.devRef .tc main_v84) = wSlice2 (W18 m ρ c (Proc.devRef .tc main_arg10)) := by
  after_results
  rfl

theorem v87_at_19 : W19 m ρ c (Proc.devRef .tc main_v87) = bRow2 (W18 m ρ c (Proc.devRef .tc main_arg9)) := by
  after_results
  rfl

theorem v88_at_19 : W19 m ρ c (Proc.devRef .tc main_v88) = bRow2 (W18 m ρ c (Proc.devRef .tc main_arg11)) := by
  after_results
  rfl

theorem v102_at_21 : W21 m ρ c (Proc.devRef .tc main_v102) = meanRow (W20 m ρ c (Proc.devRef .tc main_v89_1)) := by
  after_results
  rfl

theorem v103_at_21 : W21 m ρ c (Proc.devRef .tc main_v103) = varRow (W20 m ρ c (Proc.devRef .tc main_v89_1)) (W20 m ρ c (Proc.devRef .tc main_v89_2)) := by
  after_results
  rfl

theorem v104_at_21 : W21 m ρ c (Proc.devRef .tc main_v104) = bRow2 (W20 m ρ c (Proc.devRef .tc main_arg12)) := by
  after_results
  rfl

theorem v105_at_21 : W21 m ρ c (Proc.devRef .tc main_v105) = bRow2 (W20 m ρ c (Proc.devRef .tc main_arg13)) := by
  after_results
  rfl

end Cert.KernelIdeal.Host

end
-- ==== Proof.SpecLaws.lean ====
import proofs.«427245_j11416023073365_2_alg».proof.Proof.Spec
import Mathlib.Data.EReal.Basic
import Mathlib.Data.EReal.Operations
import Mathlib.Algebra.BigOperators.Group.Finset.Basic
import Mathlib.Algebra.BigOperators.Ring.Finset
import Mathlib.Algebra.Order.BigOperators.Group.Finset
import Mathlib.Tactic.Choose
import Mathlib.Tactic.Ring
import Mathlib.Tactic.FieldSimp
import Mathlib.Tactic.Linarith
import Mathlib.Tactic.NormNum

noncomputable section

namespace Gnn

open Idealize.ShloMosaic Idealize.ShloMosaic.ValueIdx

variable {n k m : ℕ}

theorem coe_fsum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

-- The real numbers inside the extended reals are closed under sums, products, finite sums and the rectifier.
theorem isR_add {a b : EReal} (ha : ∃ u : ℝ, a = u) (hb : ∃ v : ℝ, b = v) : ∃ w : ℝ, a + b = w := by
  obtain ⟨u, rfl⟩ := ha; obtain ⟨v, rfl⟩ := hb; exact ⟨u + v, (EReal.coe_add u v).symm⟩
theorem isR_mul {a b : EReal} (ha : ∃ u : ℝ, a = u) (hb : ∃ v : ℝ, b = v) : ∃ w : ℝ, a * b = w := by
  obtain ⟨u, rfl⟩ := ha; obtain ⟨v, rfl⟩ := hb; exact ⟨u * v, (EReal.coe_mul u v).symm⟩
theorem isR_sum {ι : Type*} (s : Finset ι) {f : ι → EReal} (h : ∀ i, ∃ v : ℝ, f i = v) : ∃ w : ℝ, ∑ i ∈ s, f i = w := by
  choose g hg using h
  exact ⟨∑ i ∈ s, g i, by rw [Finset.sum_congr rfl fun i _ => hg i, coe_fsum]⟩
theorem isR_max0 {a : EReal} (ha : ∃ u : ℝ, a = u) : ∃ w : ℝ, max a 0 = w := by
  obtain ⟨u, rfl⟩ := ha
  rcases le_total (u : EReal) 0 with h | h
  · exact ⟨0, max_eq_right h⟩
  · exact ⟨u, max_eq_left h⟩

theorem nodes_eq : nodes = ((100000 : ℝ) : EReal) := by
  have h : nodes = ((12800000 * (2 ^ 7)⁻¹ : ℝ) : EReal) := by
    simp [nodes, Ideal.ofBits, Ideal.ieee]
  rw [h]
  exact congrArg _ (by norm_num)
theorem epsBN_pos : ∃ e : ℝ, 0 < e ∧ epsBN = (e : EReal) := by
  have h : epsBN = ((10995116 * (2 ^ 40)⁻¹ : ℝ) : EReal) := by
    simp [epsBN, Ideal.ofBits, Ideal.ieee]
  exact ⟨_, by norm_num, h⟩

theorem div_nodes (a : ℝ) : Ideal.div (a : EReal) nodes = ((a * (1 / 100000) : ℝ) : EReal) := by
  rw [nodes_eq, Ideal.div_coe (by norm_num : (100000 : ℝ) ≠ 0), ← EReal.coe_mul]

theorem lin_real {x : Fin n → Fin k → EReal} {w : Fin k → Fin m → EReal} {b : Fin m → EReal}
    (hx : Real2 x) (hw : Real2 w) (hb : Real1 b) : Real2 (lin x w b) :=
  fun r c => isR_add (isR_sum _ fun q => isR_mul (hx r q) (hw q c)) (hb c)
theorem madd_real {a b : Fin n → Fin m → EReal} (ha : Real2 a) (hb : Real2 b) : Real2 (madd a b) :=
  fun r c => isR_add (ha r c) (hb r c)
theorem addRelu_real {a b : Fin n → Fin m → EReal} (ha : Real2 a) (hb : Real2 b) : Real2 (addRelu a b) :=
  fun r c => isR_max0 (isR_add (ha r c) (hb r c))
theorem mlp_real {z : Fin n → Fin k → EReal} {w1 : Fin k → Fin k → EReal} {b1 : Fin k → EReal}
    {w2 : Fin k → Fin m → EReal} {b2 : Fin m → EReal}
    (hz : Real2 z) (hw1 : Real2 w1) (hb1 : Real1 b1) (hw2 : Real2 w2) (hb2 : Real1 b2) : Real2 (mlp z w1 b1 w2 b2) :=
  lin_real (fun r c => isR_max0 (lin_real hz hw1 hb1 r c)) hw2 hb2

-- Over the reals, with N terms and mean S/N, the mean of the squared deviations is the mean of the squares minus the squared mean.
theorem real_var_law (N : ℕ) (hN : (N : ℝ) ≠ 0) (f : Fin N → ℝ) :
    (∑ r, (f r - (∑ r, f r) * (1 / (N : ℝ))) * (f r - (∑ r, f r) * (1 / (N : ℝ)))) * (1 / (N : ℝ))
      = (∑ r, f r * f r) * (1 / (N : ℝ)) - ((∑ r, f r) * (1 / (N : ℝ))) * ((∑ r, f r) * (1 / (N : ℝ))) := by
  generalize hS : (∑ r, f r) = S
  generalize hμ : S * (1 / (N : ℝ)) = μ
  have e : ∀ r, (f r - μ) * (f r - μ) = f r * f r - 2 * μ * f r + μ * μ := fun r => by ring
  simp only [e, Finset.sum_add_distrib, Finset.sum_sub_distrib, ← Finset.mul_sum, Finset.sum_const,
    Finset.card_univ, Fintype.card_fin, nsmul_eq_mul, hS]
  rw [← hμ]
  field_simp
  ring

theorem varR_eq_varK {z : Fin 100000 → Fin m → EReal} (hz : Real2 z) :
    varR z (meanOf (colsum z)) = varK (colsum z) (colsumsq z) := by
  choose f hf using hz
  funext c
  have law := real_var_law 100000 (by norm_num) (fun r => f r c)
  simp only [Nat.cast_ofNat] at law
  simp only [varR, varK, meanOf, colsum, colsumsq, hf, ← EReal.coe_sub, ← EReal.coe_mul, coe_fsum, div_nodes]
  exact congrArg _ law

-- The variance is a mean of squares, so the square root's argument is positive and every entry stays real.
theorem bnRelu_real {z : Fin 100000 → Fin m → EReal} {g b : Fin m → EReal} (hz : Real2 z) (hg : Real1 g) (hb : Real1 b) :
    Real2 (bnRelu z (meanOf (colsum z)) (varR z (meanOf (colsum z))) g b) := by
  choose f hf using hz
  obtain ⟨e, he, hee⟩ := epsBN_pos
  intro r c
  obtain ⟨gv, hgv⟩ := hg c
  obtain ⟨bv, hbv⟩ := hb c
  have hmu : meanOf (colsum z) c = (((∑ r : Fin 100000, f r c) * (1 / 100000) : ℝ) : EReal) := by
    simp only [meanOf, colsum, hf, coe_fsum, div_nodes]
  generalize (∑ r : Fin 100000, f r c) * (1 / 100000 : ℝ) = mu at hmu
  have hvar : varR z (meanOf (colsum z)) c
      = (((∑ r : Fin 100000, (f r c - mu) * (f r c - mu)) * (1 / 100000) : ℝ) : EReal) := by
    simp only [varR, hmu, hf, ← EReal.coe_sub, ← EReal.coe_mul, coe_fsum, div_nodes]
  have hnn : 0 ≤ (∑ r : Fin 100000, (f r c - mu) * (f r c - mu)) * (1 / 100000 : ℝ) :=
    mul_nonneg (Finset.sum_nonneg fun r _ => mul_self_nonneg _) (by norm_num)
  generalize (∑ r : Fin 100000, (f r c - mu) * (f r c - mu)) * (1 / 100000 : ℝ) = v at hvar hnn
  have hpos : 0 < v + e := by linarith
  have hrs : Ideal.rsqrt (((v + e : ℝ)) : EReal) = (((Real.sqrt (v + e))⁻¹ : ℝ) : EReal) := by
    rw [Ideal.rsqrt_coe, if_neg (not_lt.mpr hpos.le), if_neg hpos.ne']
  simp only [bnRelu, hvar, hee, hmu, hf, hgv, hbv, ← EReal.coe_add, hrs, ← EReal.coe_sub, ← EReal.coe_mul]
  exact isR_max0 ⟨_, rfl⟩

end Gnn

end
-- ==== Proof.Net.lean ====
import proofs.«427245_j11416023073365_2_alg».proof.Proof.SpecLaws

noncomputable section

namespace Gnn

variable {E N : ℕ}

def varDev (z : Fin N → Fin 64 → EReal) : Fin 64 → EReal := varR z (meanOf (colsum z))

def varMom (z : Fin N → Fin 64 → EReal) : Fin 64 → EReal := varK (colsum z) (colsumsq z)

def preNorm (gath : (Fin N → Fin 64 → EReal) → Fin E → Fin 64 → EReal)
    (scat : (Fin E → Fin 64 → EReal) → Fin N → Fin 64 → EReal)
    (h : Fin N → Fin 64 → EReal) (e : Fin E → Fin 64 → EReal)
    (w1 : Fin 64 → Fin 64 → EReal) (b1 : Fin 64 → EReal) (w2 : Fin 64 → Fin 64 → EReal) (b2 : Fin 64 → EReal) :
    Fin N → Fin 64 → EReal :=
  mlp (madd h (scat (addRelu (gath h) e))) w1 b1 w2 b2

def layerWith (gath : (Fin N → Fin 64 → EReal) → Fin E → Fin 64 → EReal)
    (scat : (Fin E → Fin 64 → EReal) → Fin N → Fin 64 → EReal)
    (var : (Fin N → Fin 64 → EReal) → Fin 64 → EReal)
    (h : Fin N → Fin 64 → EReal) (e : Fin E → Fin 64 → EReal)
    (w1 : Fin 64 → Fin 64 → EReal) (b1 : Fin 64 → EReal) (w2 : Fin 64 → Fin 64 → EReal) (b2 : Fin 64 → EReal)
    (g bb : Fin 64 → EReal) : Fin N → Fin 64 → EReal :=
  bnRelu (preNorm gath scat h e w1 b1 w2 b2) (meanOf (colsum (preNorm gath scat h e w1 b1 w2 b2)))
    (var (preNorm gath scat h e w1 b1 w2 b2)) g bb

-- Where the pieces agree and keep real arrays real, the layer written with either variance is one real array.
theorem layer_step {E : ℕ} {gK g : (Fin 100000 → Fin 64 → EReal) → Fin E → Fin 64 → EReal}
    {s : (Fin E → Fin 64 → EReal) → Fin 100000 → Fin 64 → EReal} {hK h : Fin 100000 → Fin 64 → EReal}
    {e : Fin E → Fin 64 → EReal} {w1 w2 : Fin 64 → Fin 64 → EReal} {b1K b1 b2K b2 gmK gm bbK bb : Fin 64 → EReal}
    (hg : gK = g) (hh : hK = h) (hb1 : b1K = b1) (hb2 : b2K = b2) (hgm : gmK = gm) (hbb : bbK = bb)
    (rg : ∀ x, Real2 x → Real2 (g x)) (rs : ∀ x, Real2 x → Real2 (s x)) (rh : Real2 h) (re : Real2 e)
    (rw1 : Real2 w1) (rb1 : Real1 b1) (rw2 : Real2 w2) (rb2 : Real1 b2) (rgm : Real1 gm) (rbb : Real1 bb) :
    layerWith gK s varMom hK e w1 b1K w2 b2K gmK bbK = layerWith g s varDev h e w1 b1 w2 b2 gm bb ∧
      Real2 (layerWith g s varDev h e w1 b1 w2 b2 gm bb) := by
  subst hg hh hb1 hb2 hgm hbb
  have hz : Real2 (preNorm gK s hK e w1 b1K w2 b2K) :=
    mlp_real (madd_real rh (rs _ (addRelu_real (rg _ rh) re))) rw1 rb1 rw2 rb2
  exact ⟨by unfold layerWith varMom varDev; rw [varR_eq_varK hz], bnRelu_real hz rgm rbb⟩

end Gnn

end
-- ==== Proof.KerNet.lean ====
import proofs.«427245_j11416023073365_2_alg».proof.Proof.KDefs
import proofs.«427245_j11416023073365_2_alg».proof.Proof.Net
import Idealize.ShloMosaic.PureOps.Ideal

noncomputable section

namespace Cert.KernelIdeal.KerNet

open Cert.KernelIdeal Cert.KernelIdeal.Gen Cert.KernelIdeal.KDefs Gnn Idealize.ShloMosaic

variable (x0 : FVec Ideal S100000x128 .f32) (x1 : FVec Ideal S3200000x16 .f32) (x2 : IVec S2x3200000 32)
  (x4 : FVec Ideal S128x64 .f32) (x5 : FVec Ideal S64 .f32) (x6 : FVec Ideal S16x64 .f32) (x7 : FVec Ideal S64 .f32)
  (x8 : FVec Ideal S3x64x64 .f32) (x9 : FVec Ideal S3x64 .f32) (x10 : FVec Ideal S3x64x64 .f32)
  (x11 x12 x13 : FVec Ideal S3x64 .f32)

def gath : (Fin 100000 → Fin 64 → EReal) → Fin 3200000 → Fin 64 → EReal :=
  fun x => toMat (takeFill (F := Ideal) (ofMat x) (srcOf x2))

def scat : (Fin 3200000 → Fin 64 → EReal) → Fin 100000 → Fin 64 → EReal :=
  fun u => toMat (scatAdd (F := Ideal) (dstOf x2) (ofMat u))

def h0 : Fin 100000 → Fin 64 → EReal := lin (toMat x0) (toMat x4) (toVec x5)

def e : Fin 3200000 → Fin 64 → EReal := lin (toMat x1) (toMat x6) (toVec x7)

def h1 : Fin 100000 → Fin 64 → EReal :=
  layerWith (gath x2) (scat x2) varMom (h0 x0 x4 x5) (e x1 x6 x7) (toMat (wSlice0 x8)) (rowOf (bRow0 x9))
    (toMat (wSlice0 x10)) (rowOf (bRow0 x11)) (rowOf (bRow0 x12)) (rowOf (bRow0 x13))

def h2 : Fin 100000 → Fin 64 → EReal :=
  layerWith (gath x2) (scat x2) varMom (h1 x0 x1 x2 x4 x5 x6 x7 x8 x9 x10 x11 x12 x13) (e x1 x6 x7) (toMat (wSlice1 x8))
    (rowOf (bRow1 x9)) (toMat (wSlice1 x10)) (rowOf (bRow1 x11)) (rowOf (bRow1 x12)) (rowOf (bRow1 x13))

def h3 : Fin 100000 → Fin 64 → EReal :=
  layerWith (gath x2) (scat x2) varMom (h2 x0 x1 x2 x4 x5 x6 x7 x8 x9 x10 x11 x12 x13) (e x1 x6 x7) (toMat (wSlice2 x8))
    (rowOf (bRow2 x9)) (toMat (wSlice2 x10)) (rowOf (bRow2 x11)) (rowOf (bRow2 x12)) (rowOf (bRow2 x13))

end Cert.KernelIdeal.KerNet

end
-- ==== Proof.GlueStats.lean ====
import proofs.«427245_j11416023073365_2_alg».proof.Proof.Glue
import proofs.«427245_j11416023073365_2_alg».proof.Proof.KDefs

noncomputable section

namespace Cert.KernelIdeal.Glue

open Cert.KernelIdeal Cert.KernelIdeal.Gen Cert.KernelIdeal.KDefs Gnn Idealize.ShloMosaic

theorem rowOf_meanRow (s : FVec Ideal S1x64 .f32) : rowOf (meanRow (F := Ideal) s) = meanOf (rowOf s) := by
  unfold meanRow
  rw [rowOf_addUnit, toVec_div_nodes, toVec_dropUnit]

theorem rowOf_varRow (s ss : FVec Ideal S1x64 .f32) : rowOf (varRow (F := Ideal) s ss) = varK (rowOf s) (rowOf ss) := by
  unfold varRow
  rw [rowOf_addUnit, toVec_varK, toVec_dropUnit, toVec_dropUnit]

end Cert.KernelIdeal.Glue

end
-- ==== Proof.Layer.lean ====
import proofs.«427245_j11416023073365_2_alg».proof.Proof.GlueStats
import proofs.«427245_j11416023073365_2_alg».proof.Proof.KerNet

noncomputable section

namespace Cert.KernelIdeal.Chain

open Cert.KernelIdeal Cert.KernelIdeal.Gen Cert.KernelIdeal.Glue Cert.KernelIdeal.KDefs Cert.KernelIdeal.KerNet Gnn
open Idealize.ShloMosaic

variable {H : Fin 100000 → Fin 64 → EReal} {E : Fin 3200000 → Fin 64 → EReal} {x2 : IVec S2x3200000 32}
  {ws : FVec Ideal S3x64x64 .f32 → FVec Ideal S64x64 .f32} {br : FVec Ideal S3x64 .f32 → FVec Ideal S1x64 .f32}
  {p8 q8 p10 q10 : FVec Ideal S3x64x64 .f32} {p9 q9 p11 q11 p12 q12 p13 q13 : FVec Ideal S3x64 .f32}
  {a5 a5' a12 z0 z0' out : FVec Ideal S100000x64 .f32} {a7 a8 a9 : FVec Ideal S3200000x64 .f32}
  {a1 a3 : IVec S3200000 32} {a14 a18 : FVec Ideal S64x64 .f32} {a21 a22 z1 z2 a36 a37 a38 a39 : FVec Ideal S1x64 .f32}
  {Z : Fin 100000 → Fin 64 → EReal}

/-- One layer as equations between the arrays it passes through: substituting them leaves one identity. -/
theorem layer_out (t8 : a8 = takeFill a5 a1) (hH : a5 = ofMat H) (hsrc : a1 = srcOf x2)
    (t9 : a9 = ofMat (addRelu (toMat a8) (toMat a7))) (hE : a7 = ofMat E)
    (t12 : a12 = scatAdd a3 a9) (hdst : a3 = dstOf x2)
    (tz : z0 = ofMat Z) (tz1 : z1 = ofRow (colsum Z)) (tz2 : z2 = ofRow (colsumsq Z))
    (hZ : Z = mlp (madd (toMat a5') (toMat a12)) (toMat a14) (rowOf a21) (toMat a18) (rowOf a22)) (kH : a5' = a5)
    (t14 : a14 = ws q8) (h8 : q8 = p8) (t21 : a21 = br q9) (h9 : q9 = p9)
    (t18 : a18 = ws q10) (h10 : q10 = p10) (t22 : a22 = br q11) (h11 : q11 = p11)
    (tout : out = ofMat (bnRelu (toMat z0') (rowOf a36) (rowOf a37) (rowOf a38) (rowOf a39))) (kz : z0' = z0)
    (t36 : a36 = meanRow z1) (t37 : a37 = varRow z1 z2)
    (t38 : a38 = br q12) (h12 : q12 = p12) (t39 : a39 = br q13) (h13 : q13 = p13) :
    out = ofMat (layerWith (gath x2) (scat x2) varMom H E (toMat (ws p8)) (rowOf (br p9)) (toMat (ws p10))
      (rowOf (br p11)) (rowOf (br p12)) (rowOf (br p13))) := by
  subst_vars
  rw [rowOf_meanRow, rowOf_varRow]
  rfl

end Cert.KernelIdeal.Chain

end
-- ==== Proof.ChainTop.lean ====
import proofs.«427245_j11416023073365_2_alg».proof.Proof.Gen.KernelIdeal.Frame
import proofs.«427245_j11416023073365_2_alg».proof.Proof.KLin0
import proofs.«427245_j11416023073365_2_alg».proof.Proof.KLin1
import proofs.«427245_j11416023073365_2_alg».proof.Proof.KMsg2
import proofs.«427245_j11416023073365_2_alg».proof.Proof.KMlp3
import proofs.«427245_j11416023073365_2_alg».proof.Proof.KNorm4
import proofs.«427245_j11416023073365_2_alg».proof.Proof.KMsg5
import proofs.«427245_j11416023073365_2_alg».proof.Proof.KMlp6
import proofs.«427245_j11416023073365_2_alg».proof.Proof.KNorm7
import proofs.«427245_j11416023073365_2_alg».proof.Proof.KMsg8
import proofs.«427245_j11416023073365_2_alg».proof.Proof.KMlp9
import proofs.«427245_j11416023073365_2_alg».proof.Proof.KNorm10
import proofs.«427245_j11416023073365_2_alg».proof.Proof.Persist
import proofs.«427245_j11416023073365_2_alg».proof.Proof.Glue
import proofs.«427245_j11416023073365_2_alg».proof.Proof.HostEnds
import proofs.«427245_j11416023073365_2_alg».proof.Proof.HostL0
import proofs.«427245_j11416023073365_2_alg».proof.Proof.HostL1
import proofs.«427245_j11416023073365_2_alg».proof.Proof.HostL2
import proofs.«427245_j11416023073365_2_alg».proof.Proof.KerNet
import proofs.«427245_j11416023073365_2_alg».proof.Proof.Layer

set_option maxRecDepth 16384

noncomputable section

namespace Cert.KernelIdeal.Chain

open Cert.KernelIdeal Cert.KernelIdeal.Gen Cert.KernelIdeal.Val Cert.KernelIdeal.Persist Cert.KernelIdeal.Glue
open Cert.KernelIdeal.Host Cert.KernelIdeal.KDefs Cert.KernelIdeal.KerNet Gnn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem h0_at_2 : W2 m ρ c (Proc.devRef .tc main_v5) = ofMat (h0 (m ((c : Thread nD τ).loc main_arg0)) (m ((c : Thread nD τ).loc main_arg4)) (m ((c : Thread nD τ).loc main_arg5))) := by
  have a0 : W1 m ρ c (Proc.devRef .tc main_arg0) = (m ((c : Thread nD τ).loc main_arg0)) := keep m ρ c 0 1
  have a4 : W1 m ρ c (Proc.devRef .tc main_arg4) = (m ((c : Thread nD τ).loc main_arg4)) := keep m ρ c 0 1
  refine (W2_arr m ρ c 3).trans ((lin0_value (V1 m ρ) c).trans ?_)
  show ofMat (lin (toMat (W1 m ρ c (Proc.devRef .tc main_arg0))) (toMat (W1 m ρ c (Proc.devRef .tc main_arg4)))
    (rowOf (W1 m ρ c (Proc.devRef .tc main_v4)))) = _
  rw [a0, a4, v4_at_1, rowOf_addUnit]
  rfl

theorem e_at_4 : W4 m ρ c (Proc.devRef .tc main_v7) = ofMat (e (m ((c : Thread nD τ).loc main_arg1)) (m ((c : Thread nD τ).loc main_arg6)) (m ((c : Thread nD τ).loc main_arg7))) := by
  have a1 : W3 m ρ c (Proc.devRef .tc main_arg1) = (m ((c : Thread nD τ).loc main_arg1)) := keep m ρ c 0 3
  have a6 : W3 m ρ c (Proc.devRef .tc main_arg6) = (m ((c : Thread nD τ).loc main_arg6)) := keep m ρ c 0 3
  have a7 : W2 m ρ c (Proc.devRef .tc main_arg7) = (m ((c : Thread nD τ).loc main_arg7)) := keep m ρ c 0 2
  refine (W4_arr m ρ c 3).trans ((lin1_value (V3 m ρ) c).trans ?_)
  show ofMat (lin (toMat (W3 m ρ c (Proc.devRef .tc main_arg1))) (toMat (W3 m ρ c (Proc.devRef .tc main_arg6)))
    (rowOf (W3 m ρ c (Proc.devRef .tc main_v6)))) = _
  rw [a1, a6, v6_at_3, rowOf_addUnit, a7]
  rfl

theorem h1_at_10 : W10 m ρ c (Proc.devRef .tc main_v40) = ofMat (h1 (m (c.tc.loc main_arg0)) (m (c.tc.loc main_arg1)) (m (c.tc.loc main_arg2)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13))) :=
  layer_out (ws := wSlice0) (br := bRow0) (v8_at_5 m ρ c) ((keep m ρ c 2 4).trans (h0_at_2 m ρ c)) ((keep m ρ c 1 4).trans (v1_at_1 m ρ c))
    ((W6_arr m ρ c 2).trans (msg2_value (V5 m ρ) c)) ((keep m ρ c 4 5).trans (e_at_4 m ρ c))
    (v12_at_7 m ρ c) ((keep m ρ c 1 6).trans (v3_at_1 m ρ c))
    ((W8_arr m ρ c 6).trans (mlp3_z2 (V7 m ρ) c)) ((W8_arr m ρ c 7).trans (mlp3_sum (V7 m ρ) c))
    ((W8_arr m ρ c 8).trans (mlp3_sumsq (V7 m ρ) c)) rfl (keep m ρ c 4 7)
    (v14_at_7 m ρ c) (keep m ρ c 0 6) (v21_at_7 m ρ c) (keep m ρ c 0 6) (v18_at_7 m ρ c) (keep m ρ c 0 6) (v22_at_7 m ρ c) (keep m ρ c 0 6)
    ((W10_arr m ρ c 5).trans (norm4_value (V9 m ρ) c)) (keep m ρ c 8 9) (v36_at_9 m ρ c) (v37_at_9 m ρ c)
    (v38_at_9 m ρ c) (keep m ρ c 0 8) (v39_at_9 m ρ c) (keep m ρ c 0 8)

theorem h2_at_16 : W16 m ρ c (Proc.devRef .tc main_v73) = ofMat (h2 (m (c.tc.loc main_arg0)) (m (c.tc.loc main_arg1)) (m (c.tc.loc main_arg2)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13))) :=
  layer_out (ws := wSlice1) (br := bRow1) (v41_at_11 m ρ c) (h1_at_10 m ρ c) ((keep m ρ c 1 10).trans (v1_at_1 m ρ c))
    ((W12_arr m ρ c 2).trans (msg5_value (V11 m ρ) c)) ((keep m ρ c 4 11).trans (e_at_4 m ρ c))
    (v45_at_13 m ρ c) ((keep m ρ c 1 12).trans (v3_at_1 m ρ c))
    ((W14_arr m ρ c 6).trans (mlp6_z2 (V13 m ρ) c)) ((W14_arr m ρ c 7).trans (mlp6_sum (V13 m ρ) c))
    ((W14_arr m ρ c 8).trans (mlp6_sumsq (V13 m ρ) c)) rfl (keep m ρ c 10 13)
    (v47_at_13 m ρ c) (keep m ρ c 0 12) (v54_at_13 m ρ c) (keep m ρ c 0 12) (v51_at_13 m ρ c) (keep m ρ c 0 12) (v55_at_13 m ρ c) (keep m ρ c 0 12)
    ((W16_arr m ρ c 5).trans (norm7_value (V15 m ρ) c)) (keep m ρ c 14 15) (v69_at_15 m ρ c) (v70_at_15 m ρ c)
    (v71_at_15 m ρ c) (keep m ρ c 0 14) (v72_at_15 m ρ c) (keep m ρ c 0 14)

theorem h3_at_22 : W22 m ρ c (Proc.devRef .tc main_v106) = ofMat (h3 (m (c.tc.loc main_arg0)) (m (c.tc.loc main_arg1)) (m (c.tc.loc main_arg2)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13))) :=
  layer_out (ws := wSlice2) (br := bRow2) (v74_at_17 m ρ c) (h2_at_16 m ρ c) ((keep m ρ c 1 16).trans (v1_at_1 m ρ c))
    ((W18_arr m ρ c 2).trans (msg8_value (V17 m ρ) c)) ((keep m ρ c 4 17).trans (e_at_4 m ρ c))
    (v78_at_19 m ρ c) ((keep m ρ c 1 18).trans (v3_at_1 m ρ c))
    ((W20_arr m ρ c 6).trans (mlp9_z2 (V19 m ρ) c)) ((W20_arr m ρ c 7).trans (mlp9_sum (V19 m ρ) c))
    ((W20_arr m ρ c 8).trans (mlp9_sumsq (V19 m ρ) c)) rfl (keep m ρ c 16 19)
    (v80_at_19 m ρ c) (keep m ρ c 0 18) (v87_at_19 m ρ c) (keep m ρ c 0 18) (v84_at_19 m ρ c) (keep m ρ c 0 18) (v88_at_19 m ρ c) (keep m ρ c 0 18)
    ((W22_arr m ρ c 5).trans (norm10_value (V21 m ρ) c)) (keep m ρ c 20 21) (v102_at_21 m ρ c) (v103_at_21 m ρ c)
    (v104_at_21 m ρ c) (keep m ρ c 0 20) (v105_at_21 m ρ c) (keep m ρ c 0 20)

theorem res0 : W23 m ρ c (Proc.devRef .tc main_v106) = ofMat (h3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keep m ρ c 22 23).trans (h3_at_22 m ρ c)

theorem res1 : W23 m ρ c (Proc.devRef .tc main_v118) = pool (F := Ideal) (ofMat (h3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))) (m ((c : Thread nD τ).loc main_arg3)) := by
  rw [v118_at_23, h3_at_22, show W22 m ρ c (Proc.devRef .tc main_arg3) = (m ((c : Thread nD τ).loc main_arg3)) from keep m ρ c 0 22]

end Cert.KernelIdeal.Chain

end
-- ==== Proof.RefRunSeq.lean ====
import proofs.«427245_j11416023073365_2_alg».proof.Proof.RefSeq

noncomputable section

namespace Cert.ReferenceIdeal.Seq

open Cert.ReferenceIdeal Cert.ReferenceIdeal.Gen Idealize.ShloMosaic Idealize.ShloMosaic.TcCoe Idealize.SL.Sem Idealize.ShloMosaic.StableHlo

variable {F : FTy → Type} [FloatOps F]

theorem after_app : ∀ (l₁ l₂ : List (HloOp τ sig (Elt F))) (V : Valuation τ sig (Elt F)),
    after (l₁ ++ l₂) V = after l₂ (after l₁ V)
  | [], _, _ => rfl
  | _ :: l₁, l₂, _ => after_app l₁ l₂ _

theorem ops_sub : (ops : List (HloOp τ sig (Elt F))).Forall fun op => op.bufs ⊆ tcRefs τ sig :=
  List.forall_append.2 ⟨List.forall_append.2 ⟨List.forall_append.2 ⟨List.forall_append.2
    ⟨opsH_sub, opsL0_sub⟩, opsL1_sub⟩, opsL2_sub⟩, opsT_sub⟩

/-- Every operation determines what it writes. -/
theorem ops_fresh : (ops : List (HloOp τ sig (Elt F))).Forall fun op => op.fresh = ∅ := by
  refine List.forall_append.2 ⟨List.forall_append.2 ⟨List.forall_append.2 ⟨List.forall_append.2 ⟨?_, ?_⟩, ?_⟩, ?_⟩, ?_⟩ <;>
    repeat (first | exact rfl | refine ⟨rfl, ?_⟩)

theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after opsT (after opsL2 (after opsL1 (after opsL0 (after opsH (launchContents m c))))) (Proc.devRef .tc b) := by
  have h := run_seq scopedRefs_eq scopedSems_eq defs main (fun _ => ops) main_eq (fun _ => ops_sub) m ρ
    (fun _ => List.forall_iff_forall_mem.1 ops_fresh)
  simp only [after_app] at h
  exact h

end Cert.ReferenceIdeal.Seq

end
-- ==== Proof.RDefs.lean ====
import proofs.«427245_j11416023073365_2_alg».proof.Proof.Gen.ReferenceIdeal

noncomputable section

namespace Cert.ReferenceIdeal.RDefs

open Cert.ReferenceIdeal Cert.ReferenceIdeal.Gen Idealize.ShloMosaic

variable {F : FTy → Type} [FloatOps F]

def srcOf (x2 : IVec S2x3200000 32) : IVec S3200000 32 :=
  shapeCast S3200000 (extractStridedSlice S1x3200000 ![0, 0] x2 slices_S2x3200000_S1x3200000_0_0) shapeCasts_S1x3200000_S3200000

def dstOf (x2 : IVec S2x3200000 32) : IVec S3200000 32 :=
  shapeCast S3200000 (extractStridedSlice S1x3200000 ![1, 0] x2 slices_S2x3200000_S1x3200000_1_0) shapeCasts_S1x3200000_S3200000

def wrapIdx (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

def gatherRows (h : FVec F S100000x64 .f32) (s : IVec S3200000 32) : FVec F S3200000x64 .f32 :=
  Host.gather gather_S100000x64_S3200000x1_S3200000x64_1_0_n_n_0_1_164 h (wrapIdx s)

def scatAdd (d : IVec S3200000 32) (u : FVec F S3200000x64 .f32) : FVec F S100000x64 .f32 :=
  Host.scatterAdd scatter_S100000x64_S3200000x1_S3200000x64_1_0_0_1
    (broadcastInDim S100000x64 ![] bcast_S_S100000x64 (constant (F := F) S_ .f32 0x00000000#32))
    (broadcastInDim S3200000x1 ![0] bcast_S3200000_S3200000x1_0 d) u

def wSlice0 (x : FVec F S3x64x64 .f32) : FVec F S64x64 .f32 :=
  shapeCast S64x64 (extractStridedSlice S1x64x64 ![0, 0, 0] x slices_S3x64x64_S1x64x64_0_0_0) shapeCasts_S1x64x64_S64x64

def bVec0 (x : FVec F S3x64 .f32) : FVec F S64 .f32 :=
  shapeCast S64 (extractStridedSlice S1x64 ![0, 0] x slices_S3x64_S1x64_0_0) shapeCasts_S1x64_S64

def wSlice1 (x : FVec F S3x64x64 .f32) : FVec F S64x64 .f32 :=
  shapeCast S64x64 (extractStridedSlice S1x64x64 ![1, 0, 0] x slices_S3x64x64_S1x64x64_1_0_0) shapeCasts_S1x64x64_S64x64

def bVec1 (x : FVec F S3x64 .f32) : FVec F S64 .f32 :=
  shapeCast S64 (extractStridedSlice S1x64 ![1, 0] x slices_S3x64_S1x64_1_0) shapeCasts_S1x64_S64

def wSlice2 (x : FVec F S3x64x64 .f32) : FVec F S64x64 .f32 :=
  shapeCast S64x64 (extractStridedSlice S1x64x64 ![2, 0, 0] x slices_S3x64x64_S1x64x64_2_0_0) shapeCasts_S1x64x64_S64x64

def bVec2 (x : FVec F S3x64 .f32) : FVec F S64 .f32 :=
  shapeCast S64 (extractStridedSlice S1x64 ![2, 0] x slices_S3x64_S1x64_2_0) shapeCasts_S1x64_S64

def pool (h : FVec F S100000x64 .f32) (b : IVec S100000 32) : FVec F S256x64 .f32 :=
  Host.divf
    (Host.scatterAdd scatter_S256x64_S100000x1_S100000x64_1_0_0_1
      (broadcastInDim S256x64 ![] bcast_S_S256x64 (constant (F := F) S_ .f32 0x00000000#32))
      (broadcastInDim S100000x1 ![0] bcast_S100000_S100000x1_0 b) h)
    (broadcastInDim S256x64 ![0, 1] bcast_S256x1_S256x64_0_1
      (broadcastInDim S256x1 ![0] bcast_S256_S256x1_0
        (maximumf
          (Host.scatterAdd scatter_S256_S100000x1_S100000_n_0_0_1
            (broadcastInDim S256 ![] bcast_S_S256 (constant (F := F) S_ .f32 0x00000000#32))
            (broadcastInDim S100000x1 ![0] bcast_S100000_S100000x1_0 b)
            (broadcastInDim S100000 ![] bcast_S_S100000 (constant (F := F) S_ .f32 0x3F800000#32)))
          (broadcastInDim S256 ![] bcast_S_S256 (constant (F := F) S_ .f32 0x3F800000#32)))))

end Cert.ReferenceIdeal.RDefs

end
-- ==== Proof.RNet.lean ====
import proofs.«427245_j11416023073365_2_alg».proof.Proof.RDefs
import proofs.«427245_j11416023073365_2_alg».proof.Proof.Net
import Idealize.ShloMosaic.PureOps.Ideal

noncomputable section

namespace Cert.ReferenceIdeal.RNet

open Cert.ReferenceIdeal Cert.ReferenceIdeal.Gen Cert.ReferenceIdeal.RDefs Gnn Idealize.ShloMosaic

variable (x0 : FVec Ideal S100000x128 .f32) (x1 : FVec Ideal S3200000x16 .f32) (x2 : IVec S2x3200000 32)
  (x4 : FVec Ideal S128x64 .f32) (x5 : FVec Ideal S64 .f32) (x6 : FVec Ideal S16x64 .f32) (x7 : FVec Ideal S64 .f32)
  (x8 : FVec Ideal S3x64x64 .f32) (x9 : FVec Ideal S3x64 .f32) (x10 : FVec Ideal S3x64x64 .f32)
  (x11 x12 x13 : FVec Ideal S3x64 .f32)

def gath : (Fin 100000 → Fin 64 → EReal) → Fin 3200000 → Fin 64 → EReal :=
  fun x => toMat (gatherRows (F := Ideal) (ofMat x) (srcOf x2))

def scat : (Fin 3200000 → Fin 64 → EReal) → Fin 100000 → Fin 64 → EReal :=
  fun u => toMat (scatAdd (F := Ideal) (dstOf x2) (ofMat u))

def h0 : Fin 100000 → Fin 64 → EReal := lin (toMat x0) (toMat x4) (toVec x5)

def e : Fin 3200000 → Fin 64 → EReal := lin (toMat x1) (toMat x6) (toVec x7)

def h1 : Fin 100000 → Fin 64 → EReal :=
  layerWith (gath x2) (scat x2) varDev (h0 x0 x4 x5) (e x1 x6 x7) (toMat (wSlice0 x8)) (toVec (bVec0 x9))
    (toMat (wSlice0 x10)) (toVec (bVec0 x11)) (toVec (bVec0 x12)) (toVec (bVec0 x13))

def h2 : Fin 100000 → Fin 64 → EReal :=
  layerWith (gath x2) (scat x2) varDev (h1 x0 x1 x2 x4 x5 x6 x7 x8 x9 x10 x11 x12 x13) (e x1 x6 x7) (toMat (wSlice1 x8))
    (toVec (bVec1 x9)) (toMat (wSlice1 x10)) (toVec (bVec1 x11)) (toVec (bVec1 x12)) (toVec (bVec1 x13))

def h3 : Fin 100000 → Fin 64 → EReal :=
  layerWith (gath x2) (scat x2) varDev (h2 x0 x1 x2 x4 x5 x6 x7 x8 x9 x10 x11 x12 x13) (e x1 x6 x7) (toMat (wSlice2 x8))
    (toVec (bVec2 x9)) (toMat (wSlice2 x10)) (toVec (bVec2 x11)) (toVec (bVec2 x12)) (toVec (bVec2 x13))

end Cert.ReferenceIdeal.RNet

end
-- ==== Proof.RefGeneric.lean ====
import proofs.«427245_j11416023073365_2_alg».proof.Proof.Gen.ReferenceIdeal
import proofs.«427245_j11416023073365_2_alg».proof.Proof.Net
import Idealize.ShloMosaic.Lib.StackMember
import Idealize.ShloMosaic.Lib.Pipeline.Value
import Idealize.ShloMosaic.Lib.ValueIdx
import Idealize.ShloMosaic.PureOps.Ideal.Laws

noncomputable section

namespace Cert.ReferenceIdeal.RefNet

open Cert.ReferenceIdeal Cert.ReferenceIdeal.Gen Gnn Idealize.ShloMosaic Idealize.ShloMosaic.ValueIdx

section AnyValues
variable {F : FTy → Type} [FloatOps F]

def rowsOf (b : FVec F S64 .f32) : FVec F S100000x64 .f32 :=
  broadcastInDim S100000x64 ![0, 1] bcast_S1x64_S100000x64_0_1 (broadcastInDim S1x64 ![1] bcast_S64_S1x64_1 b)
def zerosN : FVec F S100000x64 .f32 :=
  broadcastInDim S100000x64 ![] bcast_S_S100000x64 (constant (F := F) S_ .f32 0x00000000#32)
def zerosE : FVec F S3200000x64 .f32 :=
  broadcastInDim S3200000x64 ![] bcast_S_S3200000x64 (constant (F := F) S_ .f32 0x00000000#32)
def colConst (w : BitVec 32) : FVec F S64 .f32 :=
  broadcastInDim S64 ![] bcast_S_S64 (constant (F := F) S_ .f32 w)
def colSum (z : FVec F S100000x64 .f32) : FVec F S64 .f32 :=
  Host.reduceAdd (F := F) z (constant (F := F) S_ .f32 0x00000000#32) reducesTo_S100000x64_S64_d0 h_S_
def affineP (a : FVec F S100000x64 .f32) (w : FVec F S64x64 .f32) (b : FVec F S64 .f32) : FVec F S100000x64 .f32 :=
  addf (Host.dotGeneral dot_S100000x64_S64x64_S100000x64_1_0_0_1_n_n none a w) (rowsOf b)
def msgP (u ee : FVec F S3200000x64 .f32) : FVec F S3200000x64 .f32 := maximumf (addf u ee) zerosE
def meanP (z : FVec F S100000x64 .f32) : FVec F S64 .f32 := Host.divf (F := F) (colSum z) (colConst 0x47C35000#32)
def devP (z : FVec F S100000x64 .f32) : FVec F S100000x64 .f32 := subf z (rowsOf (meanP z))
def varP (z : FVec F S100000x64 .f32) : FVec F S64 .f32 :=
  Host.divf (F := F) (colSum (mulf (devP z) (devP z))) (colConst 0x47C35000#32)
def rstdP (z : FVec F S100000x64 .f32) : FVec F S64 .f32 :=
  Host.rsqrt (F := F) (addf (varP z) (colConst 0x3727C5AC#32))
def normP (z : FVec F S100000x64 .f32) (g bb : FVec F S64 .f32) : FVec F S100000x64 .f32 :=
  maximumf (addf (mulf (mulf (devP z) (rowsOf (rstdP z))) (rowsOf g)) (rowsOf bb)) zerosN
def aggP (h : FVec F S100000x64 .f32) (ee : FVec F S3200000x64 .f32) (i1 i2 : IVec S3200000x1 32)
    (z0 : FVec F S100000x64 .f32) : FVec F S100000x64 .f32 :=
  addf h (Host.scatterAdd (F := F) scatter_S100000x64_S3200000x1_S3200000x64_1_0_0_1 z0 i2
    (msgP (Host.gather gather_S100000x64_S3200000x1_S3200000x64_1_0_n_n_0_1_164 h i1) ee))
def percP (z : FVec F S100000x64 .f32) (w1 : FVec F S64x64 .f32) (b1 : FVec F S64 .f32)
    (w2 : FVec F S64x64 .f32) (b2 : FVec F S64 .f32) : FVec F S100000x64 .f32 :=
  affineP (maximumf (affineP z w1 b1) zerosN) w2 b2
/-- One layer in the program's order and association, over its operands. -/
def layerP (h : FVec F S100000x64 .f32) (ee : FVec F S3200000x64 .f32) (i1 i2 : IVec S3200000x1 32)
    (z0 : FVec F S100000x64 .f32) (w1 : FVec F S64x64 .f32) (b1 : FVec F S64 .f32)
    (w2 : FVec F S64x64 .f32) (b2 g bb : FVec F S64 .f32) : FVec F S100000x64 .f32 :=
  normP (percP (aggP h ee i1 i2 z0) w1 b1 w2 b2) g bb

end AnyValues

/-- A vector of 64 column values laid out as one row and spread over n rows holds, in every row, the vector. -/
theorem rows_apply {n : ℕ} (h₁ : S64.BroadcastsInDim S1x64 ![1]) (h₂ : S1x64.BroadcastsInDim ⟨2, ![n, 64]⟩ ![0, 1])
    (b : FVec Ideal S64 .f32) (p : Fin n) (q : Fin 64) :
    broadcastInDim ⟨2, ![n, 64]⟩ ![0, 1] h₂ (broadcastInDim S1x64 ![1] h₁ b) (ix2 p q) = b (ix1 q) :=
  (broadcastInDim_apply ![0, 1] h₂ _ (ix2 p q) (ix2 0 q) fun a => by match a with | ⟨0, _⟩ => rfl | ⟨1, _⟩ => rfl).trans
    (broadcastInDim_apply ![1] h₁ b (ix2 0 q) (ix1 q) fun a => by match a with | ⟨0, _⟩ => rfl)

theorem ext2 {n m : ℕ} {f g : FVec Ideal ⟨2, ![n, m]⟩ .f32} (h : ∀ r c, f (ix2 r c) = g (ix2 r c)) : f = g :=
  funext fun j => (congrArg f (eq_ix2 j)).trans ((h _ _).trans (congrArg g (eq_ix2 j)).symm)

/-- Entry (r, c) of the product of an n × k array with a k × m array is the inner product of row r with column c. -/
theorem dot_apply {n k m : ℕ} (w : DotDims.WF ⟨2, ![n, k]⟩ ⟨2, ![k, m]⟩ ⟨2, ![n, m]⟩ [1] [0] [0] [1] [] [])
    (a : FVec Ideal ⟨2, ![n, k]⟩ .f32) (x : FVec Ideal ⟨2, ![k, m]⟩ .f32) (r : Fin n) (c : Fin m) :
    Host.dotGeneral (⟨[1], [0], [0], [1], [], [], w⟩ : DotDims _ _ _) none a x (ix2 r c) = ∑ q : Fin k, a (ix2 r q) * x (ix2 q c) :=
  StackMember.dotGeneral_plain_apply none a x r c

theorem rowsOf_apply (b : FVec Ideal S64 .f32) (r : Fin 100000) (c : Fin 64) : rowsOf b (ix2 r c) = b (ix1 c) :=
  rows_apply _ _ b r c

variable (z : FVec Ideal S100000x64 .f32) (r : Fin 100000) (c : Fin 64)

theorem colSum_apply : colSum z (ix1 c) = ∑ r : Fin 100000, z (ix2 r c) := by
  unfold colSum
  simp only [Host.reduceAdd, Ideal.hostReduceAdd_def]
  rw [Ideal.hostReduceAdd_single reducesTo_S100000x64_S64_d0 (by decide)]
  have h0 : (constant (F := Ideal) S_ .f32 0x00000000#32) (Shape.Idx.first h_S_) = 0 := Ideal.ofBits_zero_f32
  rw [h0, zero_add]
  exact Finset.sum_congr rfl fun k _ => congrArg z (funext fun a => Fin.ext (by match a with | ⟨0, _⟩ => rfl | ⟨1, _⟩ => rfl))

theorem colConst_apply (w : BitVec 32) (j : S64.Idx) : colConst (F := Ideal) w j = Ideal.ofBits .f32 w :=
  broadcastInDim_apply _ bcast_S_S64 _ j (fun a => a.elim0) (fun a => a.elim0)

theorem affineP_eq (a : FVec Ideal S100000x64 .f32) (w : FVec Ideal S64x64 .f32) (b : FVec Ideal S64 .f32) :
    affineP a w b = ofMat (lin (toMat a) (toMat w) (toVec b)) :=
  ext2 fun r c => congrArg₂ (· + ·) (dot_apply _ a w r c) (rowsOf_apply b r c)

theorem msgP_eq (u ee : FVec Ideal S3200000x64 .f32) : msgP u ee = ofMat (addRelu (toMat u) (toMat ee)) :=
  ext2 fun r c => congrArg (max _) ((broadcastInDim_apply _ bcast_S_S3200000x64 _ _ (fun a => a.elim0) (fun a => a.elim0)).trans Ideal.ofBits_zero_f32)

theorem zerosN_apply (j : S100000x64.Idx) : zerosN (F := Ideal) j = 0 :=
  (broadcastInDim_apply _ bcast_S_S100000x64 _ j (fun a => a.elim0) (fun a => a.elim0)).trans Ideal.ofBits_zero_f32

theorem max_zerosN_eq (a : FVec Ideal S100000x64 .f32) : maximumf a zerosN = ofMat (relu (toMat a)) :=
  ext2 fun r c => congrArg (max _) (zerosN_apply _)

theorem meanP_apply : meanP z (ix1 c) = meanOf (colsum (toMat z)) c :=
  congrArg₂ Ideal.div (colSum_apply z c) (colConst_apply _ _)

theorem devP_apply : devP z (ix2 r c) = toMat z r c - meanOf (colsum (toMat z)) c :=
  congrArg (z (ix2 r c) - ·) ((rowsOf_apply _ r c).trans (meanP_apply z c))

theorem rstdP_apply : rstdP z (ix1 c) = Ideal.rsqrt (varDev (toMat z) c + epsBN) := by
  refine congrArg Ideal.rsqrt (congrArg₂ (· + ·) (congrArg₂ Ideal.div ?_ (colConst_apply _ _)) (colConst_apply _ _))
  rw [colSum_apply]
  exact Finset.sum_congr rfl fun r _ => congrArg₂ (· * ·) (devP_apply z r c) (devP_apply z r c)

theorem normP_eq (g bb : FVec Ideal S64 .f32) :
    normP z g bb = ofMat (bnRelu (toMat z) (meanOf (colsum (toMat z))) (varDev (toMat z)) (toVec g) (toVec bb)) :=
  ext2 fun r c => by
    show max (devP z _ * rowsOf (rstdP z) _ * rowsOf g _ + rowsOf bb _) (zerosN _) = _
    rw [zerosN_apply, devP_apply, rowsOf_apply, rowsOf_apply, rowsOf_apply, rstdP_apply]
    rfl

theorem layerP_eq (h : FVec Ideal S100000x64 .f32) (ee : FVec Ideal S3200000x64 .f32) (i1 i2 : IVec S3200000x1 32)
    (z0 : FVec Ideal S100000x64 .f32) (w1 : FVec Ideal S64x64 .f32) (b1 : FVec Ideal S64 .f32)
    (w2 : FVec Ideal S64x64 .f32) (b2 g bb : FVec Ideal S64 .f32) :
    layerP h ee i1 i2 z0 w1 b1 w2 b2 g bb
      = ofMat (layerWith
          (fun x => toMat (Host.gather gather_S100000x64_S3200000x1_S3200000x64_1_0_n_n_0_1_164 (ofMat x) i1))
          (fun u => toMat (Host.scatterAdd (F := Ideal) scatter_S100000x64_S3200000x1_S3200000x64_1_0_0_1 z0 i2 (ofMat u)))
          varDev (toMat h) (toMat ee) (toMat w1) (toVec b1) (toMat w2) (toVec b2) (toVec g) (toVec bb)) := by
  unfold layerP percP aggP layerWith preNorm mlp
  rw [normP_eq, affineP_eq, max_zerosN_eq, affineP_eq, msgP_eq]
  simp only [toMat_ofMat, ofMat_toMat]
  rw [show ∀ a b : FVec Ideal S100000x64 .f32, addf a b = ofMat (madd (toMat a) (toMat b)) from
    fun a b => ext2 fun _ _ => rfl]
  simp only [toMat_ofMat]

end Cert.ReferenceIdeal.RefNet

end
-- ==== Proof.RefHead.lean ====
import proofs.«427245_j11416023073365_2_alg».proof.Proof.RefSeq
import proofs.«427245_j11416023073365_2_alg».proof.Proof.RDefs
import proofs.«427245_j11416023073365_2_alg».proof.Proof.RNet
import proofs.«427245_j11416023073365_2_alg».proof.Proof.RefGeneric

noncomputable section

namespace Cert.ReferenceIdeal.RefChunks

open Cert.ReferenceIdeal Cert.ReferenceIdeal.Gen Cert.ReferenceIdeal.Seq Cert.ReferenceIdeal.RefNet Gnn Idealize.ShloMosaic
open Idealize.ShloMosaic.ValueIdx Idealize.ShloMosaic.TcCoe Idealize.SL.Sem Idealize.ShloMosaic.StableHlo

theorem head_v9 {F : FTy → Type} [FloatOps F] (V : Valuation τ sig (Elt F)) :
    after opsH V (Proc.devRef .tc main_v9) = RDefs.srcOf (V (Proc.devRef .tc main_arg2)) := by
  after_results
  rfl

theorem head_v11 {F : FTy → Type} [FloatOps F] (V : Valuation τ sig (Elt F)) :
    after opsH V (Proc.devRef .tc main_v11) = RDefs.dstOf (V (Proc.devRef .tc main_arg2)) := by
  after_results
  rfl

variable (V : Valuation τ sig (Elt Ideal))

/-- Each projection is a product plus a bias row, that is the affine map of its three operands. -/
theorem head_v3 : after opsH V (Proc.devRef .tc main_v3)
    = ofMat (RNet.h0 (V (Proc.devRef .tc main_arg0)) (V (Proc.devRef .tc main_arg4)) (V (Proc.devRef .tc main_arg5))) := by
  after_results
  exact ext2 fun p q => congrArg₂ (· + ·) (dot_apply _ _ _ p q) (rows_apply _ _ _ p q)

theorem head_v7 : after opsH V (Proc.devRef .tc main_v7)
    = ofMat (RNet.e (V (Proc.devRef .tc main_arg1)) (V (Proc.devRef .tc main_arg6)) (V (Proc.devRef .tc main_arg7))) := by
  after_results
  exact ext2 fun p q => congrArg₂ (· + ·) (dot_apply _ _ _ p q) (rows_apply _ _ _ p q)

end Cert.ReferenceIdeal.RefChunks

end
-- ==== Proof.RefTail.lean ====
import proofs.«427245_j11416023073365_2_alg».proof.Proof.RefSeq
import proofs.«427245_j11416023073365_2_alg».proof.Proof.RDefs

noncomputable section

namespace Cert.ReferenceIdeal.RefChunks

open Cert.ReferenceIdeal Cert.ReferenceIdeal.Gen Cert.ReferenceIdeal.Seq Idealize.ShloMosaic Idealize.ShloMosaic.TcCoe
open Idealize.SL.Sem Idealize.ShloMosaic.StableHlo

/-- The last sixteen operations are the mean pooling of the third layer's rows over the graph index. -/
theorem tail_v203 {F : FTy → Type} [FloatOps F] (V : Valuation τ sig (Elt F)) :
    after opsT V (Proc.devRef .tc main_v203)
      = RDefs.pool (V (Proc.devRef .tc main_v191)) (V (Proc.devRef .tc main_arg3)) := by
  after_results
  rfl

end Cert.ReferenceIdeal.RefChunks

end
-- ==== Proof.RefKeep.lean ====
import proofs.«427245_j11416023073365_2_alg».proof.Proof.RefSeq

noncomputable section

namespace Cert.ReferenceIdeal.RefChunks

open Cert.ReferenceIdeal Cert.ReferenceIdeal.Gen Cert.ReferenceIdeal.Seq
open Idealize.ShloMosaic Idealize.ShloMosaic.TcCoe Idealize.SL.Sem Idealize.ShloMosaic.StableHlo

variable {F : FTy → Type} [FloatOps F]

/-- Every operation of the list writes one buffer, of index at least `lo`. -/
def WritesFrom (lo : ℕ) (l : List (HloOp τ sig (Elt F))) : Prop :=
  l.Forall fun op => ∃ y : Ref sig .tc, op.writes = {Proc.devRef .tc y} ∧ lo ≤ y.idx.val

/-- Such a list leaves every buffer of smaller index as it was. -/
theorem WritesFrom.keep {lo : ℕ} {l : List (HloOp τ sig (Elt F))} (hl : WritesFrom lo l)
    (V : Valuation τ sig (Elt F)) {r : Ref sig .tc} (hr : r.idx.val < lo) :
    after l V (Proc.devRef .tc r) = V (Proc.devRef .tc r) :=
  after_of_forall_not_mem l V fun op hop hb => by
    obtain ⟨y, hy, hlo⟩ := List.forall_iff_forall_mem.1 hl op hop
    rw [hy, Finset.mem_singleton] at hb
    rw [Proc.devRef_injective _ hb] at hr
    omega

theorem writesH : WritesFrom 14 (opsH (F := F)) := by
  repeat (first | exact ⟨_, rfl, by decide⟩ | refine ⟨⟨_, rfl, by decide⟩, ?_⟩)
theorem writesL0 : WritesFrom 26 (opsL0 (F := F)) := by
  repeat (first | exact ⟨_, rfl, by decide⟩ | refine ⟨⟨_, rfl, by decide⟩, ?_⟩)
theorem writesL1 : WritesFrom 100 (opsL1 (F := F)) := by
  repeat (first | exact ⟨_, rfl, by decide⟩ | refine ⟨⟨_, rfl, by decide⟩, ?_⟩)
theorem writesL2 : WritesFrom 174 (opsL2 (F := F)) := by
  repeat (first | exact ⟨_, rfl, by decide⟩ | refine ⟨⟨_, rfl, by decide⟩, ?_⟩)
theorem writesT : WritesFrom 248 (opsT (F := F)) := by
  repeat (first | exact ⟨_, rfl, by decide⟩ | refine ⟨⟨_, rfl, by decide⟩, ?_⟩)

end Cert.ReferenceIdeal.RefChunks

end
-- ==== Proof.RefLayer0.lean ====
import proofs.«427245_j11416023073365_2_alg».proof.Proof.RefSeq
import proofs.«427245_j11416023073365_2_alg».proof.Proof.RDefs
import proofs.«427245_j11416023073365_2_alg».proof.Proof.LibCast
import proofs.«427245_j11416023073365_2_alg».proof.Proof.RefGeneric

noncomputable section

namespace Cert.ReferenceIdeal.RefChunks

open Cert.ReferenceIdeal Cert.ReferenceIdeal.Gen Cert.ReferenceIdeal.Seq Idealize.ShloMosaic Idealize.ShloMosaic.TcCoe Idealize.SL.Sem
open Idealize.ShloMosaic.StableHlo Gnn Cert.ReferenceIdeal.RefNet

/-- The layer's operations leave the layer of pure functions of the operands they find, the variance as the mean of the squared deviations. -/
theorem layer0_v71 (V : Valuation τ sig (Elt Ideal)) :
    after opsL0 V (Proc.devRef .tc main_v71)
      = ofMat (layerWith (fun x => toMat (RDefs.gatherRows (F := Ideal) (ofMat x) (V (Proc.devRef .tc main_v9))))
          (fun u => toMat (RDefs.scatAdd (F := Ideal) (V (Proc.devRef .tc main_v11)) (ofMat u))) varDev
          (toMat (V (Proc.devRef .tc main_v3))) (toMat (V (Proc.devRef .tc main_v7)))
          (toMat (RDefs.wSlice0 (F := Ideal) (V (Proc.devRef .tc main_arg8)))) (toVec (RDefs.bVec0 (F := Ideal) (V (Proc.devRef .tc main_arg9))))
          (toMat (RDefs.wSlice0 (F := Ideal) (V (Proc.devRef .tc main_arg10)))) (toVec (RDefs.bVec0 (F := Ideal) (V (Proc.devRef .tc main_arg11))))
          (toVec (RDefs.bVec0 (F := Ideal) (V (Proc.devRef .tc main_arg12)))) (toVec (RDefs.bVec0 (F := Ideal) (V (Proc.devRef .tc main_arg13))))) := by
  after_results_simp
  simp only [TRef.ofBuf_toBuf]
  exact layerP_eq _ _ _ _ _ _ _ _ _ _ _

end Cert.ReferenceIdeal.RefChunks

end
-- ==== Proof.RefLayer1.lean ====
import proofs.«427245_j11416023073365_2_alg».proof.Proof.RefSeq
import proofs.«427245_j11416023073365_2_alg».proof.Proof.RDefs
import proofs.«427245_j11416023073365_2_alg».proof.Proof.LibCast
import proofs.«427245_j11416023073365_2_alg».proof.Proof.RefGeneric

noncomputable section

namespace Cert.ReferenceIdeal.RefChunks

open Cert.ReferenceIdeal Cert.ReferenceIdeal.Gen Cert.ReferenceIdeal.Seq Idealize.ShloMosaic Idealize.ShloMosaic.TcCoe Idealize.SL.Sem
open Idealize.ShloMosaic.StableHlo Gnn Cert.ReferenceIdeal.RefNet

/-- The layer's operations leave the layer of pure functions of the operands they find, the variance as the mean of the squared deviations. -/
theorem layer1_v131 (V : Valuation τ sig (Elt Ideal)) :
    after opsL1 V (Proc.devRef .tc main_v131)
      = ofMat (layerWith (fun x => toMat (RDefs.gatherRows (F := Ideal) (ofMat x) (V (Proc.devRef .tc main_v9))))
          (fun u => toMat (RDefs.scatAdd (F := Ideal) (V (Proc.devRef .tc main_v11)) (ofMat u))) varDev
          (toMat (V (Proc.devRef .tc main_v71))) (toMat (V (Proc.devRef .tc main_v7)))
          (toMat (RDefs.wSlice1 (F := Ideal) (V (Proc.devRef .tc main_arg8)))) (toVec (RDefs.bVec1 (F := Ideal) (V (Proc.devRef .tc main_arg9))))
          (toMat (RDefs.wSlice1 (F := Ideal) (V (Proc.devRef .tc main_arg10)))) (toVec (RDefs.bVec1 (F := Ideal) (V (Proc.devRef .tc main_arg11))))
          (toVec (RDefs.bVec1 (F := Ideal) (V (Proc.devRef .tc main_arg12)))) (toVec (RDefs.bVec1 (F := Ideal) (V (Proc.devRef .tc main_arg13))))) := by
  after_results_simp
  simp only [TRef.ofBuf_toBuf]
  exact layerP_eq _ _ _ _ _ _ _ _ _ _ _

end Cert.ReferenceIdeal.RefChunks

end
-- ==== Proof.RefLayer2.lean ====
import proofs.«427245_j11416023073365_2_alg».proof.Proof.RefSeq
import proofs.«427245_j11416023073365_2_alg».proof.Proof.RDefs
import proofs.«427245_j11416023073365_2_alg».proof.Proof.LibCast
import proofs.«427245_j11416023073365_2_alg».proof.Proof.RefGeneric

noncomputable section

namespace Cert.ReferenceIdeal.RefChunks

open Cert.ReferenceIdeal Cert.ReferenceIdeal.Gen Cert.ReferenceIdeal.Seq Idealize.ShloMosaic Idealize.ShloMosaic.TcCoe Idealize.SL.Sem
open Idealize.ShloMosaic.StableHlo Gnn Cert.ReferenceIdeal.RefNet

/-- The layer's operations leave the layer of pure functions of the operands they find, the variance as the mean of the squared deviations. -/
theorem layer2_v191 (V : Valuation τ sig (Elt Ideal)) :
    after opsL2 V (Proc.devRef .tc main_v191)
      = ofMat (layerWith (fun x => toMat (RDefs.gatherRows (F := Ideal) (ofMat x) (V (Proc.devRef .tc main_v9))))
          (fun u => toMat (RDefs.scatAdd (F := Ideal) (V (Proc.devRef .tc main_v11)) (ofMat u))) varDev
          (toMat (V (Proc.devRef .tc main_v131))) (toMat (V (Proc.devRef .tc main_v7)))
          (toMat (RDefs.wSlice2 (F := Ideal) (V (Proc.devRef .tc main_arg8)))) (toVec (RDefs.bVec2 (F := Ideal) (V (Proc.devRef .tc main_arg9))))
          (toMat (RDefs.wSlice2 (F := Ideal) (V (Proc.devRef .tc main_arg10)))) (toVec (RDefs.bVec2 (F := Ideal) (V (Proc.devRef .tc main_arg11))))
          (toVec (RDefs.bVec2 (F := Ideal) (V (Proc.devRef .tc main_arg12)))) (toVec (RDefs.bVec2 (F := Ideal) (V (Proc.devRef .tc main_arg13))))) := by
  after_results_simp
  simp only [TRef.ofBuf_toBuf]
  exact layerP_eq _ _ _ _ _ _ _ _ _ _ _

end Cert.ReferenceIdeal.RefChunks

end
-- ==== Proof.RefAssembly.lean ====
import proofs.«427245_j11416023073365_2_alg».proof.Proof.RefRunSeq
import proofs.«427245_j11416023073365_2_alg».proof.Proof.RNet
import proofs.«427245_j11416023073365_2_alg».proof.Proof.RefHead
import proofs.«427245_j11416023073365_2_alg».proof.Proof.RefTail
import proofs.«427245_j11416023073365_2_alg».proof.Proof.RefKeep
import proofs.«427245_j11416023073365_2_alg».proof.Proof.RefLayer0
import proofs.«427245_j11416023073365_2_alg».proof.Proof.RefLayer1
import proofs.«427245_j11416023073365_2_alg».proof.Proof.RefLayer2

noncomputable section

namespace Cert.ReferenceIdeal.RefChunks

open Cert.ReferenceIdeal Cert.ReferenceIdeal.Gen Cert.ReferenceIdeal.Seq Gnn Idealize.ShloMosaic Idealize.ShloMosaic.TcCoe Idealize.SL.Sem Idealize.ShloMosaic.StableHlo

/-- The run ends with the network's three layers on the projected arguments, their pooling, and the arguments as they were. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v191) = ofMat (RNet.h3 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
      ∧ r.2.mem ((c.tc : Thread nD τ).loc main_v203)
          = RDefs.pool (F := Ideal) (ofMat (RNet.h3 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun _ h c => ?_) (run_after m ρ)
  simp only [h c]
  rw [writesT.keep _ (r := main_v191) (by decide), tail_v203, layer2_v191, layer1_v131, layer0_v71]
  simp (disch := decide) only [writesT.keep, writesL2.keep, writesL1.keep, writesL0.keep, writesH.keep, and_true]
  rw [head_v3, head_v7, head_v9, head_v11]
  exact ⟨rfl, rfl⟩

end Cert.ReferenceIdeal.RefChunks

end
-- ==== Proof.PreFacts.lean ====
import proofs.«427245_j11416023073365_2_alg».proof.Pre_finite_inputs
import proofs.«427245_j11416023073365_2_alg».proof.Proof.Spec
import Idealize.ShloMosaic.Lib.ReduceAll
import Idealize.ShloMosaic.Lib.StableHlo.Predicate

noncomputable section

namespace Cert.PreFacts

open Idealize.ShloMosaic Idealize.ShloMosaic.ValueIdx
open Idealize.ShloMosaic.StableHlo.Predicate (ofBool_eq_one_iff)

-- The absolute value of either infinity is plus infinity.
theorem real_of_abs_lt (x : EReal) (h : max x (-x) < (⊤ : EReal)) : ∃ v : ℝ, x = (v : EReal) := by
  induction x using EReal.rec with
  | bot => simp at h
  | coe v => exact ⟨v, rfl⟩
  | top => simp at h

local instance : Subsingleton (⟨0, ![]⟩ : Shape).Idx := ⟨fun a b => funext fun d => d.elim0⟩

theorem realA_of_reduce {S : Shape} {axes : List (Fin S.rank)} (a : FVec Ideal S .f32)
    (b : (⟨0, ![]⟩ : Shape).BroadcastsInDim S ![]) (r : S.ReducesTo axes ⟨0, ![]⟩) (hu : 0 < (⟨0, ![]⟩ : Shape).numel)
    (h : Host.reduce IntOp.andi
        (cmpf .olt (Host.absf a) (broadcastInDim S ![] b (constant (F := Ideal) ⟨0, ![]⟩ .f32 0x7F800000#32)))
        (constantI ⟨0, ![]⟩ 1 1#1) r hu ix0 = 1#1) : Gnn.RealA a := fun i => by
  have h' : Ideal.cmp .olt (max (a i) (-(a i))) (Ideal.ofBits .f32 0x7F800000#32) = 1#1 :=
    Host.reduce_andi_all _ _ r hu ix0 h i
  rw [show Ideal.ofBits .f32 0x7F800000#32 = (⊤ : EReal) by simp [Ideal.ofBits, Ideal.ieee]] at h'
  exact real_of_abs_lt (a i) (by simpa [Ideal.cmp, ofBool_eq_one_iff] using h')

theorem toInt_range {s lo hi : BitVec 32} {l u : Int} (hl : lo.toInt = l) (hu : hi.toInt = u)
    (h0 : IntOp.cmpi .sge s lo = 1#1) (h1 : IntOp.cmpi .slt s hi = 1#1) : s.toInt ∈ Set.Ico l u := by
  subst hl hu
  simpa only [IntOp.cmpi, ofBool_eq_one_iff, BitVec.sle, BitVec.slt, decide_eq_true_eq, Set.mem_Ico] using And.intro h0 h1

section Pre

open Cert.Pre_finite_inputs Cert.Pre_finite_inputs.Facts

variable [Cert.Pre_finite_inputs.Facts]

variable {x0 : FVec Ideal ⟨2, ![100000, 128]⟩ .f32} {x1 : FVec Ideal ⟨2, ![3200000, 16]⟩ .f32}
  {x2 : IVec ⟨2, ![2, 3200000]⟩ 32} {x3 : IVec ⟨1, ![100000]⟩ 32}
  {x4 : FVec Ideal ⟨2, ![128, 64]⟩ .f32} {x5 : FVec Ideal ⟨1, ![64]⟩ .f32} {x6 : FVec Ideal ⟨2, ![16, 64]⟩ .f32}
  {x7 : FVec Ideal ⟨1, ![64]⟩ .f32} {x8 : FVec Ideal ⟨3, ![3, 64, 64]⟩ .f32} {x9 : FVec Ideal ⟨2, ![3, 64]⟩ .f32}
  {x10 : FVec Ideal ⟨3, ![3, 64, 64]⟩ .f32} {x11 x12 x13 : FVec Ideal ⟨2, ![3, 64]⟩ .f32}

-- The precondition read back: every float argument is an array of real numbers, every source index lies in [-100000, 100000).
theorem pre_all (h : Cert.Pre_finite_inputs.fn (F := Ideal) x0 x1 x2 x3 x4 x5 x6 x7 x8 x9 x10 x11 x12 x13 = fun _ => 1#1) :
    Gnn.RealA x0 ∧ Gnn.RealA x1 ∧ Gnn.RealA x4 ∧ Gnn.RealA x5 ∧ Gnn.RealA x6 ∧ Gnn.RealA x7 ∧ Gnn.RealA x8 ∧ Gnn.RealA x9 ∧
      Gnn.RealA x10 ∧ Gnn.RealA x11 ∧ Gnn.RealA x12 ∧ Gnn.RealA x13 ∧
      ∀ i, (shapeCast S3200000 (extractStridedSlice S1x3200000 ![0, 0] x2 slices_S2x3200000_S1x3200000_0_0)
        shapeCasts_S1x3200000_S3200000 i).toInt ∈ Set.Ico (-100000 : Int) 100000 := by
  have e := congrFun h ix0
  simp only [fn, fn_part1, fn_part2, fn_part3, fn_part4, andi, IntOp.andi_eq_one] at e
  obtain ⟨⟨⟨⟨⟨⟨⟨⟨⟨⟨⟨⟨⟨c0, c1⟩, c4⟩, c5⟩, c6⟩, c7⟩, c8⟩, c9⟩, c10⟩, c11⟩, c12⟩, c13⟩, g0⟩, g1⟩ := e
  exact ⟨realA_of_reduce x0 _ _ _ c0, realA_of_reduce x1 _ _ _ c1, realA_of_reduce x4 _ _ _ c4, realA_of_reduce x5 _ _ _ c5,
    realA_of_reduce x6 _ _ _ c6, realA_of_reduce x7 _ _ _ c7, realA_of_reduce x8 _ _ _ c8, realA_of_reduce x9 _ _ _ c9,
    realA_of_reduce x10 _ _ _ c10, realA_of_reduce x11 _ _ _ c11, realA_of_reduce x12 _ _ _ c12, realA_of_reduce x13 _ _ _ c13,
    fun i => toInt_range (lo := 4294867296#32) (hi := 100000#32) (by decide) (by decide)
      (Host.reduce_andi_all _ _ _ _ ix0 g0 i) (Host.reduce_andi_all _ _ _ _ ix0 g1 i)⟩

end Pre

theorem in_range_mask (n : BitVec 32) (h0 : 0 ≤ n.toInt) (h1 : n.toInt ≤ 99999) :
    IntOp.andi (IntOp.cmpi .sge n 0#32) (IntOp.cmpi .sle n 99999#32) = 1#1 := by
  simp only [IntOp.andi_eq_one, IntOp.cmpi, ofBool_eq_one_iff, BitVec.sle, decide_eq_true_eq, BitVec.reduceToInt]
  exact ⟨h0, h1⟩

-- An index in [-100000, 100000), wrapped once when negative, lies in [0, 99999].
theorem wrap_in_range (s : BitVec 32) (hs : s.toInt ∈ Set.Ico (-100000 : Int) 100000) :
    IntOp.andi (IntOp.cmpi .sge (Scalar.select (IntOp.cmpi .slt s 0#32) (IntOp.addi s 100000#32) s) 0#32)
               (IntOp.cmpi .sle (Scalar.select (IntOp.cmpi .slt s 0#32) (IntOp.addi s 100000#32) s) 99999#32) = 1#1 := by
  obtain ⟨hlo, hhi⟩ := hs
  by_cases hneg : s.toInt < 0
  · have t : (s + 100000#32).toInt = s.toInt + 100000 := by
      rw [BitVec.toInt_add, show (100000#32).toInt = 100000 by decide, Int.bmod_def,
        show ((2 ^ 32 : ℕ) : ℤ) = 4294967296 by rfl]
      split <;> omega
    rw [show IntOp.cmpi .slt s 0#32 = 1#1 by
      simp only [IntOp.cmpi, ofBool_eq_one_iff, BitVec.slt, decide_eq_true_eq, BitVec.reduceToInt]; exact hneg, select_one]
    exact in_range_mask _ (by show 0 ≤ (s + 100000#32).toInt; omega) (by show (s + 100000#32).toInt ≤ 99999; omega)
  · rw [show IntOp.cmpi .slt s 0#32 = 0#1 by
      simp only [IntOp.cmpi, BitVec.slt, BitVec.reduceToInt, decide_eq_false hneg]; rfl, select_zero]
    exact in_range_mask _ (by omega) (by omega)

-- An and-reduction from 1 of an array of ones is 1.
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact List.foldl_fixed' (fun i => (congrArg (IntOp.andi 1#1) (hx i)).trans rfl) _

theorem select_bcast_one {α : Type} {s t : Shape} (dims : Fin s.rank → Fin t.rank) (hb : s.BroadcastsInDim t dims)
    (m : IVec s 1) (hm : ∀ i, m i = 1#1) (a b : t.Idx → α) : select (broadcastInDim t dims hb m) a b = a := by
  funext j
  rw [select_apply, show broadcastInDim t dims hb m j = 1#1 from hm _, select_one]

end Cert.PreFacts

end
-- ==== Proof.BridgeOps.lean ====
import proofs.«427245_j11416023073365_2_alg».proof.Proof.KerNet
import proofs.«427245_j11416023073365_2_alg».proof.Proof.RNet
import proofs.«427245_j11416023073365_2_alg».proof.Proof.PreFacts

noncomputable section

namespace Cert.Bridge

open Idealize.ShloMosaic Idealize.ShloMosaic.ValueIdx Gnn
open Cert.KernelIdeal Cert.ReferenceIdeal Cert.PreFacts

-- A source index in [-100000, 100000) wraps into [0, 99999], so no row is replaced and the lookup is the plain gather.
theorem gath_eq (x2 : IVec ⟨2, ![2, 3200000]⟩ 32)
    (hsrc : ∀ i, (KDefs.srcOf x2 i).toInt ∈ Set.Ico (-100000 : Int) 100000) :
    KerNet.gath x2 = RNet.gath x2 := by
  funext x
  have hm : ∀ i, KDefs.inBounds (KDefs.srcOf x2) i = 1#1 := fun i =>
    reduce_andi_of_all _ _ _ _ (fun _ => wrap_in_range _ (hsrc _)) rfl i
  exact congrArg toMat ((select_bcast_one _ _ _ hm _ _).trans rfl)

end Cert.Bridge

end
-- ==== Proof.NetReal.lean ====
import proofs.«427245_j11416023073365_2_alg».proof.Proof.RNet
import Idealize.ShloMosaic.PureOps.Ideal.Laws

noncomputable section

namespace Cert.Bridge

open Idealize.ShloMosaic Idealize.ShloMosaic.ValueIdx Gnn
open Cert.ReferenceIdeal

-- A gather only reads entries of its operand.
theorem realA_gather {s si t : Shape} {w : Nat} (d : GatherDims s si t) (x : s.Idx → EReal) (idx : IVec si w)
    (hx : RealA x) : RealA (Host.gather d x idx) := fun _ => hx _

-- Every entry of a scatter-add is an operand entry plus a finite sum of update entries.
theorem realA_scatterAdd {s si su : Shape} {w : Nat} (d : ScatterDims s si su) (x : FVec Ideal s .f32) (idx : IVec si w)
    (upd : FVec Ideal su .f32) (hx : RealA x) (hu : RealA upd) : RealA (Host.scatterAdd d x idx upd) :=
  fun i => isR_add (hx i) (isR_sum _ hu)

variable (x2 : IVec ⟨2, ![2, 3200000]⟩ 32)

theorem gath_real : ∀ x, Real2 x → Real2 (RNet.gath x2 x) :=
  fun _ hx => real2_toMat (realA_gather _ _ _ (realA_ofMat hx))

theorem scat_real : ∀ u, Real2 u → Real2 (RNet.scat x2 u) :=
  fun _ hu => real2_toMat (realA_scatterAdd _ _ _ _ (fun _ => ⟨0, Ideal.ofBits_zero_f32⟩) (realA_ofMat hu))

end Cert.Bridge

end
-- ==== Proof.Bridge.lean ====
import proofs.«427245_j11416023073365_2_alg».proof.Proof.BridgeOps
import proofs.«427245_j11416023073365_2_alg».proof.Proof.NetReal
import proofs.«427245_j11416023073365_2_alg».proof.Proof.Glue

noncomputable section

namespace Cert.Bridge

open Idealize.ShloMosaic Idealize.ShloMosaic.ValueIdx Gnn
open Cert.KernelIdeal Cert.ReferenceIdeal Cert.KernelIdeal.Glue

-- A slice and a reshaping only read entries of their operand.
theorem real2_slice {s t : Shape} {n m : ℕ} {off : Fin s.rank → Nat} {x : s.Idx → EReal} {h : s.Slices off t}
    {hc : t.ShapeCasts ⟨2, ![n, m]⟩} (hx : RealA x) : Real2 (toMat (shapeCast _ (extractStridedSlice t off x h) hc)) :=
  fun _ _ => hx _
theorem real1_slice {s t : Shape} {n : ℕ} {off : Fin s.rank → Nat} {x : s.Idx → EReal} {h : s.Slices off t}
    {hc : t.ShapeCasts ⟨1, ![n]⟩} (hx : RealA x) : Real1 (toVec (shapeCast _ (extractStridedSlice t off x h) hc)) :=
  fun _ => hx _

variable [Cert.Pre_finite_inputs.Facts] {x0 : FVec Ideal ⟨2, ![100000, 128]⟩ .f32} {x1 : FVec Ideal ⟨2, ![3200000, 16]⟩ .f32}
  {x2 : IVec ⟨2, ![2, 3200000]⟩ 32} {x3 : IVec ⟨1, ![100000]⟩ 32}
  {x4 : FVec Ideal ⟨2, ![128, 64]⟩ .f32} {x5 : FVec Ideal ⟨1, ![64]⟩ .f32} {x6 : FVec Ideal ⟨2, ![16, 64]⟩ .f32}
  {x7 : FVec Ideal ⟨1, ![64]⟩ .f32} {x8 : FVec Ideal ⟨3, ![3, 64, 64]⟩ .f32} {x9 : FVec Ideal ⟨2, ![3, 64]⟩ .f32}
  {x10 : FVec Ideal ⟨3, ![3, 64, 64]⟩ .f32} {x11 x12 x13 : FVec Ideal ⟨2, ![3, 64]⟩ .f32}

-- Under the precondition the two networks are one function: three layers, each equal to its counterpart and real.
theorem net_eq (h : Cert.Pre_finite_inputs.fn (F := Ideal) x0 x1 x2 x3 x4 x5 x6 x7 x8 x9 x10 x11 x12 x13 = fun _ => 1#1) :
    KerNet.h3 x0 x1 x2 x4 x5 x6 x7 x8 x9 x10 x11 x12 x13 = RNet.h3 x0 x1 x2 x4 x5 x6 x7 x8 x9 x10 x11 x12 x13 := by
  obtain ⟨r0, r1, r4, r5, r6, r7, r8, r9, r10, r11, r12, r13, hsrc⟩ := Cert.PreFacts.pre_all h
  have g := gath_eq x2 hsrc
  have re : Real2 (RNet.e x1 x6 x7) := lin_real (real2_toMat r1) (real2_toMat r6) (real1_toVec r7)
  have l1 : KerNet.h1 x0 x1 x2 x4 x5 x6 x7 x8 x9 x10 x11 x12 x13 = RNet.h1 x0 x1 x2 x4 x5 x6 x7 x8 x9 x10 x11 x12 x13 ∧
      Real2 (RNet.h1 x0 x1 x2 x4 x5 x6 x7 x8 x9 x10 x11 x12 x13) :=
    layer_step g rfl (rowOf_addUnit _ _) (rowOf_addUnit _ _) (rowOf_addUnit _ _) (rowOf_addUnit _ _) (gath_real x2) (scat_real x2)
      (lin_real (real2_toMat r0) (real2_toMat r4) (real1_toVec r5)) re (real2_slice r8) (real1_slice r9) (real2_slice r10)
      (real1_slice r11) (real1_slice r12) (real1_slice r13)
  have l2 : KerNet.h2 x0 x1 x2 x4 x5 x6 x7 x8 x9 x10 x11 x12 x13 = RNet.h2 x0 x1 x2 x4 x5 x6 x7 x8 x9 x10 x11 x12 x13 ∧
      Real2 (RNet.h2 x0 x1 x2 x4 x5 x6 x7 x8 x9 x10 x11 x12 x13) :=
    layer_step g l1.1 (rowOf_addUnit _ _) (rowOf_addUnit _ _) (rowOf_addUnit _ _) (rowOf_addUnit _ _) (gath_real x2) (scat_real x2)
      l1.2 re (real2_slice r8) (real1_slice r9) (real2_slice r10) (real1_slice r11) (real1_slice r12) (real1_slice r13)
  exact (layer_step g l2.1 (rowOf_addUnit _ _) (rowOf_addUnit _ _) (rowOf_addUnit _ _) (rowOf_addUnit _ _) (gath_real x2)
    (scat_real x2) l2.2 re (real2_slice r8) (real1_slice r9) (real2_slice r10) (real1_slice r11) (real1_slice r12)
    (real1_slice r13)).1

end Cert.Bridge

end
-- ==== Proof.lean ====
import proofs.«427245_j11416023073365_2_alg».proof.Defs
import proofs.«427245_j11416023073365_2_alg».proof.Proof.Gen.Kernel
import proofs.«427245_j11416023073365_2_alg».proof.Proof.Gen.Kernel.Frame
import proofs.«427245_j11416023073365_2_alg».proof.Proof.Gen.KernelIdeal
import proofs.«427245_j11416023073365_2_alg».proof.Proof.Gen.KernelIdeal.Frame
import proofs.«427245_j11416023073365_2_alg».proof.Proof.Gen.ReferenceIdeal
import proofs.«427245_j11416023073365_2_alg».proof.Proof.Gen.Pre_finite_inputs
import proofs.«427245_j11416023073365_2_alg».proof.Proof.ValueRun
import proofs.«427245_j11416023073365_2_alg».proof.Proof.ChainTop
import proofs.«427245_j11416023073365_2_alg».proof.Proof.RefAssembly
import proofs.«427245_j11416023073365_2_alg».proof.Proof.Bridge
import Idealize.ShloMosaic.Adequacy
import Idealize.ShloMosaic.Init

noncomputable section

namespace Cert.Proof

open Idealize.ShloMosaic Idealize.ShloMosaic.TcCoe Idealize.SL.Sem Gnn

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.RefChunks.ref_run m ρ)

theorem preserves : Cert.preserves_Kernel_KernelIdeal := trivial

-- Both programs' results are the three layers applied to the projected nodes, and under the precondition the two networks agree.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W23 m ρ c (Proc.devRef .tc Cert.KernelIdeal.main_v106),
    fun c => Cert.KernelIdeal.Gen.W23 m ρ c (Proc.devRef .tc Cert.KernelIdeal.main_v118),
    Cert.KernelIdeal.ValRun.run_results m ρ, ?_⟩
  refine (θ_run Cert.ReferenceIdeal.defs _ _).mono (fun r h c => ?_) (Cert.ReferenceIdeal.RefChunks.ref_run m' ρ')
  obtain ⟨a0, a1, a2, a3, a4, a5, a6, a7, a8, a9, a10, a11, a12, a13⟩ := hagree c
  refine ⟨(h c).1.trans ?_, (h c).2.1.trans ?_, (h c).2.2⟩ <;> beta_reduce
  · rw [Cert.KernelIdeal.Chain.res0 m ρ c, Cert.Bridge.net_eq (hpre c), a0, a1, a2, a4, a5, a6, a7, a8, a9, a10, a11, a12, a13]
  · rw [Cert.KernelIdeal.Chain.res1 m ρ c, Cert.Bridge.net_eq (hpre c), a0, a1, a2, a3, a4, a5, a6, a7, a8, a9, a10, a11, a12,
      a13] <;> rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
